-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_v13 : IVec S_ 1) (main_v15 : IVec S2x800000 1) (main_c_5 : IVec S_ 1) : IVec S_ 1 :=
  let main_v16 : IVec S_ 1 := (fun x v => Host.reduce IntOp.andi x v reducesTo_S2x800000_S_d0_1 h_S_) main_v15 main_c_5
  let main_v17 : IVec S_ 1 := andi main_v13 main_v16
  let main_c_6 : IVec S_ 32 := constantI S_ 32 50000#32
  let main_v18 : IVec S2x800000 32 := broadcastInDim S2x800000 ![] bcast_S_S2x800000 main_c_6
  let main_v19 : IVec S2x800000 1 := cmpi .slt main_arg1 main_v18
  let main_c_7 : IVec S_ 1 := constantI S_ 1 1#1
  let main_v20 : IVec S_ 1 := (fun x v => Host.reduce IntOp.andi x v reducesTo_S2x800000_S_d0_1 h_S_) main_v19 main_c_7
  let main_v21 : IVec S_ 1 := andi main_v17 main_v20
  main_v21

def fn {F : FTy → Type} [FloatOps F] (main_arg0 : FVec F S50000x128 .f32) (main_arg1 : IVec S2x800000 32) (main_arg2 : FVec F S128x64 .f32) (main_arg3 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_c_4 : IVec S_ 32 := constantI S_ 32 0#32
  let main_v14 : IVec S2x800000 32 := broadcastInDim S2x800000 ![] bcast_S_S2x800000 main_c_4
  let main_v15 : IVec S2x800000 1 := cmpi .sge main_arg1 main_v14
  let main_c_5 : IVec S_ 1 := constantI S_ 1 1#1
  fn_part1 (F := F) main_arg1 main_v13 main_v15 main_c_5
-- ==== Kernel.lean ====
abbrev S50000x128 : Shape := ⟨2, ![50000, 128]⟩
abbrev S2x800000 : Shape := ⟨2, ![2, 800000]⟩
abbrev S128x64 : Shape := ⟨2, ![128, 64]⟩
abbrev S128x1 : Shape := ⟨2, ![128, 1]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S1x1 : Shape := ⟨2, ![1, 1]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S1000x64 : Shape := ⟨2, ![1000, 64]⟩
abbrev S2000x1 : Shape := ⟨2, ![2000, 1]⟩
abbrev S2000x1000 : Shape := ⟨2, ![2000, 1000]⟩
abbrev S2000 : Shape := ⟨1, ![2000]⟩
abbrev S1 : Shape := ⟨1, ![1]⟩

abbrev nBuf : Space → Nat
  | .hbm => 33
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S128x1, .f32⟩
  | .hbm, ⟨4, _⟩ => ⟨S1x800000, .i32⟩
  | .hbm, ⟨5, _⟩ => ⟨S800000, .i32⟩
  | .hbm, ⟨6, _⟩ => ⟨S800000x1, .i32⟩
  | .hbm, ⟨7, _⟩ => ⟨S1x800000, .i32⟩
  | .hbm, ⟨8, _⟩ => ⟨S800000, .i32⟩
  | .hbm, ⟨9, _⟩ => ⟨S800000x1, .i32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S50000x64, .bf16⟩
  | .hbm, ⟨14, _⟩ => ⟨S800000x64, .bf16⟩
  | .hbm, ⟨15, _⟩ => ⟨S800000x64, .bf16⟩
  | .hbm, ⟨16, _⟩ => ⟨S800000x1, .f32⟩
  | .hbm, ⟨17, _⟩ => ⟨S800000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S800000, .f32⟩
  | .hbm, ⟨24, _⟩ => ⟨S800000, .f32⟩
  | .hbm, ⟨25, _⟩ => ⟨S800000, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S800000, .f32⟩
  | .hbm, ⟨30, _⟩ => ⟨S800000, .f32⟩
  | .hbm, ⟨31, _⟩ => ⟨S800000x1, .f32⟩
  | .hbm, ⟨32, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .bf16⟩
  | .local _ .vmem, ⟨4, _⟩ => ⟨S2000x64, .bf16⟩
  | .local _ .vmem, ⟨5, _⟩ => ⟨S1000x64, .bf16⟩
  | .local _ .vmem, ⟨6, _⟩ => ⟨S1000x64, .bf16⟩
  | .local _ .vmem, ⟨7, _⟩ => ⟨S2000x1, .i32⟩
  | .local _ .vmem, ⟨8, _⟩ => ⟨S2000x1, .i32⟩
  | .local _ .vmem, ⟨9, _⟩ => ⟨S2000x1, .i32⟩
  | .local _ .vmem, ⟨10, _⟩ => ⟨S2000x1, .i32⟩
  | .local _ .vmem, ⟨11, _⟩ => ⟨S1x1, .f32⟩
  | .local _ .vmem, ⟨12, _⟩ => ⟨S2000x64, .bf16⟩
  | .local _ .vmem, ⟨13, _⟩ => ⟨S2000x64, .bf16⟩
  | .local _ .vmem, ⟨14, _⟩ => ⟨S2000x64, .bf16⟩
  | .local _ .vmem, ⟨15, _⟩ => ⟨S2000x64, .bf16⟩
  | .local _ .vmem, ⟨16, _⟩ => ⟨S2000x1, .f32⟩
  | .local _ .vmem, ⟨17, _⟩ => ⟨S2000x1, .f32⟩
  | .local _ .vmem, ⟨18, _⟩ => ⟨S2000x64, .f32⟩
  | .local _ .vmem, ⟨19, _⟩ => ⟨S2000x64, .f32⟩
  | .local _ .vmem, ⟨20, _⟩ => ⟨S2000x64, .bf16⟩
  | .local _ .vmem, ⟨21, _⟩ => ⟨S2000x64, .bf16⟩
  | .local _ .vmem, ⟨22, _⟩ => ⟨S2000x1, .i32⟩
  | .local _ .vmem, ⟨23, _⟩ => ⟨S2000x1, .i32⟩
  | .local _ .vmem, ⟨24, _⟩ => ⟨S2000x1, .f32⟩
  | .local _ .vmem, ⟨25, _⟩ => ⟨S2000x1, .f32⟩
  | .local _ .vmem, ⟨26, _⟩ => ⟨S1000x64, .f32⟩
  | .local _ .vmem, ⟨27, _⟩ => ⟨S1000x64, .f32⟩
  | .local _ .vmem, ⟨28, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![400, 50], ![false, false]⟩

def k1_cond2 (i : grid1.Coords) : BitVec 1 :=
  let arg1 : BitVec 32 := BitVec.ofNat 32 (i 1).val
  let c49_i32 : BitVec 32 := 49#32
  let v35 : BitVec 1 := Scalar.cmpi .eq arg1 c49_i32
  let v36 : BitVec 32 := Scalar.extui v35
  let c0_i32_15 : BitVec 32 := 0#32
  let v37 : BitVec 1 := Scalar.cmpi .ne v36 c0_i32_15
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![50, 400], ![false, false]⟩

def k2_cond2 (i : grid2.Coords) : BitVec 1 :=
  let arg1 : BitVec 32 := BitVec.ofNat 32 (i 1).val
  let c399_i32 : BitVec 32 := 399#32
  let v28 : BitVec 1 := Scalar.cmpi .eq arg1 c399_i32
  let v29 : BitVec 32 := Scalar.extui v28
  let c0_i32_10 : BitVec 32 := 0#32
  let v30 : BitVec 1 := Scalar.cmpi .ne v29 c0_i32_10
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x800000_S1x800000_0_0 : S2x800000.Slices ![0, 0] S1x800000
  shapeCasts_S1x800000_S800000 : S1x800000.ShapeCasts S800000
  shapeCasts_S800000_S800000x1 : S800000.ShapeCasts S800000x1
  slices_S2x800000_S1x800000_1_0 : S2x800000.Slices ![1, 0] S1x800000
  reducesTo_S128x1_S_d0_1 : S128x1.ReducesTo [0, 1] S_
  h_S_ : 0 < S_.numel
  shapeCasts_S_S1x1 : S_.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  shapeCasts_S2000x64_S2000x64 : S2000x64.ShapeCasts S2000x64
  iota_S2000x1000_d1_w32 : S2000x1000.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1000 : S2000x1.Broadcasts S2000x1000
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  reduces_S2000x64_S2000 : S2000x64.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S800000x1_S800000 : S800000x1.ShapeCasts S800000
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  broadcasts_S2000x1_S2000x64 : S2000x1.Broadcasts S2000x64
  dot_S2000x128_S128x64_S2000x64_1_0_0_1_n_n_wf : DotDims.WF S2000x128 S128x64 S2000x64 [1] [0] [0] [1] [] []
  dot_S2000x1000_S1000x64_S2000x64_1_0_0_1_n_n_wf : DotDims.WF S2000x1000 S1000x64 S2000x64 [1] [0] [0] [1] [] []
  dot_S2000x1000_S2000x64_S1000x64_0_0_1_1_n_n_wf : DotDims.WF S2000x1000 S2000x64 S1000x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .bf16 = 32 ∨ (Rect.block (s := S50000x64) S1000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S800000x1.size a
  hwx1_1 : ∀ i : grid1.Coords, EltTy.bits .i32 = 32 ∨ (Rect.block (s := S800000x1) S2000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S800000x1.size a
  hwx1_2 : ∀ i : grid1.Coords, EltTy.bits .i32 = 32 ∨ (Rect.block (s := S800000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S800000x64.size a
  hwx1_4 : ∀ i : grid1.Coords, EltTy.bits .bf16 = 32 ∨ (Rect.block (s := S800000x64) S2000x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S800000x64.size a
  hwx1_5 : ∀ i : grid1.Coords, EltTy.bits .bf16 = 32 ∨ (Rect.block (s := S800000x64) S2000x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S800000x1.size a
  hwx1_6 : ∀ i : grid1.Coords, EltTy.bits .f32 = 32 ∨ (Rect.block (s := S800000x1) S2000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S800000x64.size a
  hwx2_0 : ∀ i : grid2.Coords, EltTy.bits .bf16 = 32 ∨ (Rect.block (s := S800000x64) S2000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S800000x1.size a
  hwx2_1 : ∀ i : grid2.Coords, EltTy.bits .i32 = 32 ∨ (Rect.block (s := S800000x1) S2000x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S800000x1.size a
  hwx2_2 : ∀ i : grid2.Coords, EltTy.bits .f32 = 32 ∨ (Rect.block (s := S800000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S50000x64.size a
  hwx2_3 : ∀ i : grid2.Coords, EltTy.bits .f32 = 32 ∨ (Rect.block (s := S50000x64) S1000x64.size (cc2_transform_3 i) (hinb2_3 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x1000_S1000x64_S2000x64_1_0_0_1_n_n : DotDims S2000x1000 S1000x64 S2000x64 where
  lhsContracting := [1]
  rhsContracting := [0]
  lhsNonContracting := [0]
  rhsNonContracting := [1]
  lhsBatch := []
  rhsBatch := []
  wf := dot_S2000x1000_S1000x64_S2000x64_1_0_0_1_n_n_wf
def dot_S2000x1000_S2000x64_S1000x64_0_0_1_1_n_n : DotDims S2000x1000 S2000x64 S1000x64 where
  lhsContracting := [0]
  rhsContracting := [0]
  lhsNonContracting := [1]
  rhsNonContracting := [1]
  lhsBatch := []
  rhsBatch := []
  wf := dot_S2000x1000_S2000x64_S1000x64_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S2000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_2) S2000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v9_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S128x1 : Shape := ⟨2, ![128, 1]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1 : Shape := ⟨1, ![1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S128x1, .f32⟩
  | .hbm, ⟨4, _⟩ => ⟨S50000x64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S_, .f32⟩
  | .hbm, ⟨32, _⟩ => ⟨S800000, .f32⟩
  | .hbm, ⟨33, _⟩ => ⟨S800000, .f32⟩
  | .hbm, ⟨34, _⟩ => ⟨S_, .f32⟩
  | .hbm, ⟨35, _⟩ => ⟨S_, .f32⟩
  | .hbm, ⟨36, _⟩ => ⟨S800000, .f32⟩
  | .hbm, ⟨37, _⟩ => ⟨S800000, .i1⟩
  | .hbm, ⟨38, _⟩ => ⟨S_, .f32⟩
  | .hbm, ⟨39, _⟩ => ⟨S800000, .f32⟩
  | .hbm, ⟨40, _⟩ => ⟨S800000, .f32⟩
  | .hbm, ⟨41, _⟩ => ⟨S800000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S800000, .f32⟩
  | .hbm, ⟨48, _⟩ => ⟨S800000, .f32⟩
  | .hbm, ⟨49, _⟩ => ⟨S800000, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S800000, .f32⟩
  | .hbm, ⟨54, _⟩ => ⟨S800000, .f32⟩
  | .hbm, ⟨55, _⟩ => ⟨S_, .f32⟩
  | .hbm, ⟨56, _⟩ => ⟨S50000x64, .f32⟩
  | .hbm, ⟨57, _⟩ => ⟨S800000x1, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S800000x64, .f32⟩
  | .hbm, ⟨68, _⟩ => ⟨S800000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .i1⟩
  | .hbm, ⟨81, _⟩ => ⟨S_, .f32⟩
  | .hbm, ⟨82, _⟩ => ⟨S50000x64, .f32⟩
  | .hbm, ⟨83, _⟩ => ⟨S50000x64, .i1⟩
  | .hbm, ⟨84, _⟩ => ⟨S_, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | .hbm, ⟨92, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_cst_1 : Ref sig .tc := ⟨.hbm, 84, rfl⟩
abbrev main_call1_call0_v0 : Ref sig .tc := ⟨.hbm, 85, rfl⟩
abbrev main_call1_call0_v1 : Ref sig .tc := ⟨.hbm, 86, rfl⟩
abbrev main_call1_v4 : Ref sig .tc := ⟨.hbm, 87, rfl⟩
abbrev main_call1_v5 : Ref sig .tc := ⟨.hbm, 88, rfl⟩
abbrev main_call1_cst_2 : Ref sig .tc := ⟨.hbm, 89, rfl⟩
abbrev main_call1_v6 : Ref sig .tc := ⟨.hbm, 90, rfl⟩
abbrev main_call1_v7 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  reducesTo_S128x1_S_d0_1 : S128x1.ReducesTo [0, 1] S_
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KI.R0.lean ====
import proofs.«413069_j24043226923662_1_alg».proof.Proof.Gen.KernelIdeal.Launch
import proofs.«413069_j24043226923662_1_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

abbrev bodyAt0 (t : Fin cfg0.N) : Prog (TpuEff nD τ sig (Elt F) Λ₀ .tc) PUnit :=
  cc0__proj_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

theorem flush0_2 : ∀ t : Fin cfg0.N, (cfg0.win 2).flush t = true :=
  (by decide +kernel : ∀ t : Fin grid0.N, win0_2.flush t = true)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S2000x64 := Rect.unit (s := S2000x64) ![0, 0] S2000x64.size inb_S2000x64_S2000x64_0_0

def out0_2 (x0 : Vec F S2000x128 .f32) (x1 : Vec F S128x64 .f32) : Vec F S2000x64 .bf16 :=
  View.canon [⟨r0_2, k0_pay1 (View.ld x0 r0_0) (View.ld x1 r0_1)⟩]

theorem cover0_2 (p0 : Vec F S2000x64 .bf16) (y : S2000x64.Idx) :
    ∃ pc ∈ ([⟨r0_2, p0⟩] : List (View.Piece (Elt F) S2000x64 .bf16)), y ∈ pc.1.set :=
  View.cover_of_tiled [⟨r0_2, p0⟩] S2000x64.size (by rfl) y

theorem sound_kernel0 (c : Dev nD) (E : Set ℕ) (i : grid0.Coords) (arg0 : Memref sig .tc .vmem S2000x128 .f32) (harg0 : arg0.IsWhole) (arg1 : Memref sig .tc .vmem S128x64 .f32) (harg1 : arg1.IsWhole) (arg2 : Memref sig .tc .vmem S2000x64 .bf16) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.R1Runs.lean ====
import proofs.«413069_j24043226923662_1_alg».proof.Proof.Gen.KernelIdeal.Launch
import proofs.«413069_j24043226923662_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem coord1_1 (t : Fin cfg1.N) : ((grid1.coords t) 1).val = t.val % 50 := by
  show t.val / grid1.stride 1 % 50 = t.val % 50
  rw [show grid1.stride 1 = 1 from by decide, Nat.div_one]

abbrev cond1_0 (i : grid1.Coords) : Prop := (Scalar.cmpi .ne (Scalar.extui (Scalar.cmpi .eq (BitVec.ofNat 32 (i 1).val) 0#32)) 0#32) = 1#1

theorem cond1_0_iff : ∀ j : Fin 50, (Scalar.cmpi .ne (Scalar.extui (Scalar.cmpi .eq (BitVec.ofNat 32 j.val) 0#32)) 0#32) = 1#1 ↔ j.val = 0 := by
  decide +kernel

theorem hcond1_0 : ∀ t : Fin cfg1.N, cond1_0 (grid1.coords t) ↔ t.val % 50 = 0 := fun t => by
  rw [← coord1_1 t]; exact cond1_0_iff (grid1.coords t 1)

abbrev cond1_1 (i : grid1.Coords) : Prop := k1_cond2 i = 1#1

theorem cond1_1_iff : ∀ j : Fin 50, (Scalar.cmpi .ne (Scalar.extui (Scalar.cmpi .eq (BitVec.ofNat 32 j.val) 49#32)) 0#32) = 1#1 ↔ j.val = 49 := by
  decide +kernel

theorem hcond1_1 : ∀ t : Fin cfg1.N, cond1_1 (grid1.coords t) ↔ t.val % 50 = 49 := fun t => by
  rw [← coord1_1 t]; exact cond1_1_iff (grid1.coords t 1)

theorem coord1_0 (t : Fin cfg1.N) : ((grid1.coords t) 0).val = t.val / 50 := by
  have hN : t.val < 20000 := lt_of_lt_of_eq t.isLt N_1
  show t.val / grid1.stride 0 % 400 = t.val / 50
  rw [show grid1.stride 0 = 50 from by decide]
  exact Nat.mod_eq_of_lt (by omega)

theorem toNat_ofNat_of_lt (n : ℕ) (h : n < 400) : (BitVec.ofNat 32 n).toNat = n := by
  rw [BitVec.toNat_ofNat]; exact Nat.mod_eq_of_lt (by omega)

theorem index1_4 (t : Fin cfg1.N) : win1_4.index t = ![t.val / 50, 0] := by
  show cc1_transform_4 (grid1.coords t) = _
  unfold cc1_transform_4
  dsimp only
  rw [toNat_ofNat_of_lt _ (grid1.coords t 0).isLt, coord1_0 t]
  rfl

theorem flush1_iff (w : Pipeline.Window sig grid1) (hout : w.isOut = true)
    (hix : ∀ s t : Fin grid1.N, w.index s = w.index t ↔ s.val / 50 = t.val / 50) (t : Fin grid1.N) :
    w.flush t = true ↔ t.val % 50 = 49 := by
  have hN : t.val < 20000 := lt_of_lt_of_eq t.isLt N_1
  have hG : grid1.N = 20000 := N_1
  unfold Pipeline.Window.flush
  rw [hout, Bool.true_and, Bool.or_eq_true, decide_eq_true_eq, decide_eq_true_eq]
  constructor
  · rintro (h | ⟨h, hne⟩)
    · omega
    · by_contra h49
      refine hne ((hix _ _).mpr ?_)
      show (t.val + 1) / 50 = t.val / 50
      omega
  · intro h49
    by_cases hl : t.val + 1 = grid1.N
    · exact Or.inl hl
    · have hlt : t.val + 1 < grid1.N := by omega
      refine Or.inr ⟨hlt, fun he => ?_⟩
      have h50 : (t.val + 1) / 50 = t.val / 50 := (hix ⟨t.val + 1, hlt⟩ t).mp he
      omega

theorem flush1_4 : ∀ t : Fin cfg1.N, (cfg1.win 4).flush t = true ↔ t.val % 50 = 49 :=
  flush1_iff win1_4 rfl fun s t => by
    rw [index1_4, index1_4]
    exact ⟨fun h => by have := congrFun h 0; simpa using this, fun h => by rw [h]⟩

theorem flush1_5 : ∀ t : Fin cfg1.N, (cfg1.win 5).flush t = true ↔ t.val % 50 = 49 := flush1_4
theorem flush1_6 : ∀ t : Fin cfg1.N, (cfg1.win 6).flush t = true ↔ t.val % 50 = 49 := flush1_4

abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _)

theorem liveAt1_0 : ∀ t : Fin cfg1.N, cfg1.idle 0 (grid1.coords t) = false := fun _ => rfl

theorem liveAt1_1 : ∀ t : Fin cfg1.N, cfg1.idle 1 (grid1.coords t) = false := fun _ => rfl

theorem liveAt1_2 : ∀ t : Fin cfg1.N, cfg1.idle 2 (grid1.coords t) = false := fun _ => rfl

theorem liveAt1_3 : ∀ t : Fin cfg1.N, cfg1.idle 3 (grid1.coords t) = false := fun _ => rfl

theorem idle1_of_not {i : grid1.Coords} (h : ¬cond1_1 i) : (!(k1_cond2 i == 1#1)) = true := by
  rw [Bool.not_eq_true', beq_eq_false_iff_ne]; exact h
theorem live1_of {i : grid1.Coords} (h : cond1_1 i) : (!(k1_cond2 i == 1#1)) = false := by
  rw [Bool.not_eq_false', beq_iff_eq]; exact h

theorem noFlush1_of {w : Fin cfg1.W} (hfl : ∀ t : Fin cfg1.N, (cfg1.win w).flush t = true ↔ t.val % 50 = 49) (t : Fin cfg1.N)
    (h : ¬cond1_1 (grid1.coords t)) : (cfg1.win w).flush t = false :=
  Bool.eq_false_iff.mpr fun hf => h ((hcond1_1 t).mpr ((hfl t).mp hf))
theorem liveAt1_4_C (t : Fin cfg1.N) (h : cond1_1 (grid1.coords t)) : cfg1.idle 4 (grid1.coords t) = false := live1_of h

theorem liveAt1_5_C (t : Fin cfg1.N) (h : cond1_1 (grid1.coords t)) : cfg1.idle 5 (grid1.coords t) = false := live1_of h

theorem liveAt1_6_C (t : Fin cfg1.N) (h : cond1_1 (grid1.coords t)) : cfg1.idle 6 (grid1.coords t) = false := live1_of h

abbrev VO1_4 : View sig .tc .vmem S2000x64 .bf16 := (Memref.whole cc1_stg4_0 : Memref sig .tc .vmem S2000x64 .bf16).view

abbrev VO1_5 : View sig .tc .vmem S2000x64 .bf16 := (Memref.whole cc1_stg5_0 : Memref sig .tc .vmem S2000x64 .bf16).view

abbrev VO1_6 : View sig .tc .vmem S2000x1 .f32 := (Memref.whole cc1_stg6_0 : Memref sig .tc .vmem S2000x1 .f32).view

abbrev ms1_0 (t : Fin cfg1.N) : Memref sig .tc .vmem S1000x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x1 .f32 := win1_6.stage (cfg1.slots t 6)
abbrev hs1_6 (t : Fin cfg1.N) : (ms1_6 t).IsWhole := hstage1_6 ((cfg1.slots t 6).cast nbuf1_6)

abbrev scM1_0 : Memref sig .tc .vmem S2000x64 .f32 := Memref.whole cc1_scratch0
abbrev scM1_1 : Memref sig .tc .vmem S2000x64 .f32 := Memref.whole cc1_scratch1

abbrev VS1_0 : View sig .tc .vmem S2000x64 .f32 := scM1_0.view
abbrev VS1_1 : View sig .tc .vmem S2000x64 .f32 := scM1_1.view

def Rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r))

theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ Rest1 (F := F) c) := by
  unfold Pipeline.ΦA Rest1; rw [scopedRest1_eq]; simp only [scM1_0, scM1_1, owns_whole]
  iintro ⟨⟨H0, H1, H2, H3, H4, HS0, HS1, HB⟩, Hg⟩
  isplitl [HS0]; · iexact HS0
  isplitl [HS1]; · iexact HS1
  isplitl [H0 H1 H2 H3 H4]
  · isplitl [H0]; · iexact H0
    isplitl [H1]; · iexact H1
    isplitl [H2]; · iexact H2
    isplitl [H3]; · iexact H3
    iexact H4
  isplitl [HB]; · iexact HB
  iexact Hg

theorem PhiA1_close (c : Dev nD) :
    iprop((∃ d, owns (c : Thread nD τ) scM1_0 fullShare d) ∗ (∃ d, owns (c : Thread nD τ) scM1_1 fullShare d) ∗ Rest1 (F := F) c) ⊢ (Pipeline.ΦA spec1 c : sProp 𝕄) := by
  unfold Pipeline.ΦA Rest1; rw [scopedRest1_eq]; simp only [scM1_0, scM1_1, owns_whole]
  iintro ⟨HS0, HS1, ⟨H0, H1, H2, H3, H4⟩, HB, Hg⟩
  isplitl [H0 H1 H2 H3 H4 HS0 HS1 HB]
  · isplitl [H0]; · iexact H0
    isplitl [H1]; · iexact H1
    isplitl [H2]; · iexact H2
    isplitl [H3]; · iexact H3
    isplitl [H4]; · iexact H4
    isplitl [HS0]; · iexact HS0
    isplitl [HS1]; · iexact HS1
    iexact HB
  iexact Hg

end Cert.KernelIdeal.Hand

end
-- ==== Proof.KI.R1RunA.lean ====
import proofs.«413069_j24043226923662_1_alg».proof.Proof.KI.R1Runs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

theorem run1_A (c : Dev nD) (i : grid1.Coords) (arg2 : Memref sig .tc .vmem S1000x64 .bf16) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x1 .f32) (harg5 : arg5.IsWhole) (arg6 : Memref sig .tc .vmem S2000x64 .bf16) (harg6 : arg6.IsWhole) (arg7 : Memref sig .tc .vmem S2000x64 .bf16) (harg7 : arg7.IsWhole) (arg8 : Memref sig .tc .vmem S2000x1 .f32) (harg8 : arg8.IsWhole) (arg9 : Memref sig .tc .vmem S2000x64 .f32) (harg9 : arg9.IsWhole) (arg10 : Memref sig .tc .vmem S2000x64 .f32) (harg10 : arg10.IsWhole) (hc0 : cond1_0 i) (hc1 : ¬cond1_1 i)
    (x0 : Vec F S1000x64 .bf16) (x1 : Vec F S2000x1 .i32) (x2 : Vec F S2000x1 .i32) (x3 : Vec F S1x1 .f32) (xi4 : Vec F S2000x64 .bf16) (xi5 : Vec F S2000x64 .bf16) (xi6 : Vec F S2000x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare (k1_pay8 i x1 x0 k1_pay4) ∗ owns (c : Thread nD τ) arg10 fullShare (k1_pay9 i x2 x0 k1_pay5)) -∗ K ⟨⟩))
      ⊢ wp frame (wpE (defs₀ (F := F)) Variants.none c none) E (cc1__gather_kernel i arg2 harg2 arg3 harg3 arg4 harg4 arg5 harg5 arg6 harg6 arg7 harg7 arg8 harg8 arg9 harg9 arg10 harg10) K := by
  simp only [cc1__gather_kernel_eq_skeleton]; unfold cc1__gather_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    refine (View.read_writes_eq_canon _ _ _ (View.cover_of_tiledL _ S2000x64.size ?_)).trans ?_
    · sl_kernel_rfl
    sl_unfold_words
    rw [View.canon_cons_unit_zero (S := S2000x64) hz]
    simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]
  iexists _; isplitr
  swap; · iexact HS1
  ipureintro
  refine (View.read_writes_eq_canon _ _ _ (View.cover_of_tiledL _ S2000x64.size ?_)).trans ?_
  · sl_kernel_rfl
  sl_unfold_words
  rw [View.canon_cons_unit_zero (S := S2000x64) hz]
  simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]

end Cert.KernelIdeal.Hand

end
-- ==== Proof.KI.R1RunB.lean ====
import proofs.«413069_j24043226923662_1_alg».proof.Proof.KI.R1RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem run1_B (c : Dev nD) (i : grid1.Coords) (arg2 : Memref sig .tc .vmem S1000x64 .bf16) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x1 .f32) (harg5 : arg5.IsWhole) (arg6 : Memref sig .tc .vmem S2000x64 .bf16) (harg6 : arg6.IsWhole) (arg7 : Memref sig .tc .vmem S2000x64 .bf16) (harg7 : arg7.IsWhole) (arg8 : Memref sig .tc .vmem S2000x1 .f32) (harg8 : arg8.IsWhole) (arg9 : Memref sig .tc .vmem S2000x64 .f32) (harg9 : arg9.IsWhole) (arg10 : Memref sig .tc .vmem S2000x64 .f32) (harg10 : arg10.IsWhole) (hc0 : ¬cond1_0 i) (hc1 : ¬cond1_1 i)
    (x0 : Vec F S1000x64 .bf16) (x1 : Vec F S2000x1 .i32) (x2 : Vec F S2000x1 .i32) (x3 : Vec F S1x1 .f32) (xs0 : Vec F S2000x64 .f32) (xs1 : Vec F S2000x64 .f32) (xi4 : Vec F S2000x64 .bf16) (xi5 : Vec F S2000x64 .bf16) (xi6 : Vec F S2000x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare (k1_pay8 i x1 x0 xs0) ∗ owns (c : Thread nD τ) arg10 fullShare (k1_pay9 i x2 x0 xs1)) -∗ K ⟨⟩))
      ⊢ wp frame (wpE (defs₀ (F := F)) Variants.none c none) E (cc1__gather_kernel i arg2 harg2 arg3 harg3 arg4 harg4 arg5 harg5 arg6 harg6 arg7 harg7 arg8 harg8 arg9 harg9 arg10 harg10) K := by
  simp only [cc1__gather_kernel_eq_skeleton]; unfold cc1__gather_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    refine (View.read_writes_eq_canon _ _ _ (View.cover_of_tiledL _ S2000x64.size ?_)).trans ?_
    · sl_kernel_rfl
    sl_unfold_words
    rw [View.canon_unit_zero hz]
    simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]
  iexists _; isplitr
  swap; · iexact HS1
  ipureintro
  refine (View.read_writes_eq_canon _ _ _ (View.cover_of_tiledL _ S2000x64.size ?_)).trans ?_
  · sl_kernel_rfl
  sl_unfold_words
  rw [View.canon_unit_zero hz]
  simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]

end Cert.KernelIdeal.Hand

end
-- ==== Proof.KI.R1RunC.lean ====
import proofs.«413069_j24043226923662_1_alg».proof.Proof.KI.R1RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem run1_C (c : Dev nD) (i : grid1.Coords) (arg2 : Memref sig .tc .vmem S1000x64 .bf16) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x1 .f32) (harg5 : arg5.IsWhole) (arg6 : Memref sig .tc .vmem S2000x64 .bf16) (harg6 : arg6.IsWhole) (arg7 : Memref sig .tc .vmem S2000x64 .bf16) (harg7 : arg7.IsWhole) (arg8 : Memref sig .tc .vmem S2000x1 .f32) (harg8 : arg8.IsWhole) (arg9 : Memref sig .tc .vmem S2000x64 .f32) (harg9 : arg9.IsWhole) (arg10 : Memref sig .tc .vmem S2000x64 .f32) (harg10 : arg10.IsWhole) (hc0 : ¬cond1_0 i) (hc1 : cond1_1 i)
    (x0 : Vec F S1000x64 .bf16) (x1 : Vec F S2000x1 .i32) (x2 : Vec F S2000x1 .i32) (x3 : Vec F S1x1 .f32) (xs0 : Vec F S2000x64 .f32) (xs1 : Vec F S2000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 (k1_pay8 i x1 x0 xs0)) ∗ owns (c : Thread nD τ) arg7 fullShare (k1_pay2 (k1_pay9 i x2 x0 xs1)) ∗ owns (c : Thread nD τ) arg8 fullShare (k1_pay3 (k1_pay8 i x1 x0 xs0) (k1_pay9 i x2 x0 xs1) x3) ∗ owns (c : Thread nD τ) arg9 fullShare (k1_pay8 i x1 x0 xs0) ∗ owns (c : Thread nD τ) arg10 fullShare (k1_pay9 i x2 x0 xs1)) -∗ K ⟨⟩))
      ⊢ wp frame (wpE (defs₀ (F := F)) Variants.none c none) E (cc1__gather_kernel i arg2 harg2 arg3 harg3 arg4 harg4 arg5 harg5 arg6 harg6 arg7 harg7 arg8 harg8 arg9 harg9 arg10 harg10) K := by
  simp only [cc1__gather_kernel_eq_skeleton]; unfold cc1__gather_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_eq_canon _ _ _ (View.cover_of_tiledL _ S2000x64.size ?_)).trans ?_
    · sl_kernel_rfl
    sl_unfold_words
    rw [View.canon_unit_zero hz]
    simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]
  isplitl [H5]
  · iexists _; isplitr
    swap; · iexact H5
    ipureintro
    refine (View.read_writes_eq_canon _ _ _ (View.cover_of_tiledL _ S2000x64.size ?_)).trans ?_
    · sl_kernel_rfl
    sl_unfold_words
    rw [View.canon_unit_zero hz]
    simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]
  isplitl [H6]
  · iexists _; isplitr
    swap; · iexact H6
    ipureintro
    refine (View.read_writes_eq_canon _ _ _ (View.cover_of_tiledL _ S2000x1.size ?_)).trans ?_
    · sl_kernel_rfl
    sl_unfold_words
    rw [View.canon_unit_zero hz]
    simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]
  isplitl [HS0]
  · iexists _; isplitr
    swap; · iexact HS0
    ipureintro
    refine (View.read_writes_eq_canon _ _ _ (View.cover_of_tiledL _ S2000x64.size ?_)).trans ?_
    · sl_kernel_rfl
    sl_unfold_words
    rw [View.canon_unit_zero hz]
    simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]
  iexists _; isplitr
  swap; · iexact HS1
  ipureintro
  refine (View.read_writes_eq_canon _ _ _ (View.cover_of_tiledL _ S2000x64.size ?_)).trans ?_
  · sl_kernel_rfl
  sl_unfold_words
  rw [View.canon_unit_zero hz]
  simp only [View.readAt_eq_ld, harg2.read_unread, harg3.read_unread, harg4.read_unread, harg5.read_unread, harg9.read_unread, harg10.read_unread, View.ld_unit_zero (S := S1000x64) hz, View.ld_unit_zero (S := S2000x1) hz, View.ld_unit_zero (S := S2000x64) hz, View.ld_unit_zero (S := S1x1) hz, View.readCov_unit_zero (S := S2000x64) _ hz]

end Cert.KernelIdeal.Hand

end
-- ==== Proof.KI.R1Frame.lean ====
import proofs.«413069_j24043226923662_1_alg».proof.Proof.KI.R1RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The two accumulators after point n: the node tile's contribution added to what the point before left, from zero at the first node tile of each edge tile.
def acc8 (c : Dev nD) : (n : ℕ) → n < cfg1.N → Vec F S2000x64 .f32
  | 0, hn => k1_pay8 (grid1.coords ⟨0, hn⟩) (iblk1 V c 1 ⟨0, hn⟩) (iblk1 V c 0 ⟨0, hn⟩) k1_pay4
  | n + 1, hn => k1_pay8 (grid1.coords ⟨n + 1, hn⟩) (iblk1 V c 1 ⟨n + 1, hn⟩) (iblk1 V c 0 ⟨n + 1, hn⟩) (if (n + 1) % 50 = 0 then k1_pay4 else acc8 c n (Nat.lt_of_succ_lt hn))

theorem acc8_first (c : Dev nD) (t : Fin cfg1.N) (h : t.val % 50 = 0) :
    acc8 V c t.val t.isLt = k1_pay8 (grid1.coords t) (iblk1 V c 1 t) (iblk1 V c 0 t) (k1_pay4 (F := F)) := by
  obtain ⟨n, hn⟩ := t
  cases n with
  | zero => rfl
  | succ n => exact congrArg _ (if_pos h)

theorem acc8_step (c : Dev nD) (t : Fin cfg1.N) (h : t.val % 50 ≠ 0) :
    acc8 V c t.val t.isLt = k1_pay8 (grid1.coords t) (iblk1 V c 1 t) (iblk1 V c 0 t) (acc8 V c (t.val - 1) (Nat.lt_of_le_of_lt (Nat.sub_le _ _) t.isLt)) := by
  obtain ⟨n, hn⟩ := t
  cases n with
  | zero => exact absurd (Nat.zero_mod _) h
  | succ n => exact congrArg _ (if_neg h)

theorem acc8_congr (c : Dev nD) {n n' : ℕ} (h : n = n') (hn : n < cfg1.N) (hn' : n' < cfg1.N) : acc8 V c n hn = acc8 V c n' hn' := by
  subst h; rfl

def acc9 (c : Dev nD) : (n : ℕ) → n < cfg1.N → Vec F S2000x64 .f32
  | 0, hn => k1_pay9 (grid1.coords ⟨0, hn⟩) (iblk1 V c 2 ⟨0, hn⟩) (iblk1 V c 0 ⟨0, hn⟩) k1_pay5
  | n + 1, hn => k1_pay9 (grid1.coords ⟨n + 1, hn⟩) (iblk1 V c 2 ⟨n + 1, hn⟩) (iblk1 V c 0 ⟨n + 1, hn⟩) (if (n + 1) % 50 = 0 then k1_pay5 else acc9 c n (Nat.lt_of_succ_lt hn))

theorem acc9_first (c : Dev nD) (t : Fin cfg1.N) (h : t.val % 50 = 0) :
    acc9 V c t.val t.isLt = k1_pay9 (grid1.coords t) (iblk1 V c 2 t) (iblk1 V c 0 t) (k1_pay5 (F := F)) := by
  obtain ⟨n, hn⟩ := t
  cases n with
  | zero => rfl
  | succ n => exact congrArg _ (if_pos h)

theorem acc9_step (c : Dev nD) (t : Fin cfg1.N) (h : t.val % 50 ≠ 0) :
    acc9 V c t.val t.isLt = k1_pay9 (grid1.coords t) (iblk1 V c 2 t) (iblk1 V c 0 t) (acc9 V c (t.val - 1) (Nat.lt_of_le_of_lt (Nat.sub_le _ _) t.isLt)) := by
  obtain ⟨n, hn⟩ := t
  cases n with
  | zero => exact absurd (Nat.zero_mod _) h
  | succ n => exact congrArg _ (if_neg h)

theorem acc9_congr (c : Dev nD) {n n' : ℕ} (h : n = n') (hn : n < cfg1.N) (hn' : n' < cfg1.N) : acc9 V c n hn = acc9 V c n' hn' := by
  subst h; rfl

def PhiS1 (c : Dev nD) : (n : ℕ) → n ≤ cfg1.N → sProp 𝕄
  | 0, _ => Pipeline.ΦA spec1 c
  | n + 1, hn => iprop(owns (c : Thread nD τ) scM1_0 fullShare (acc8 V c n hn) ∗ owns (c : Thread nD τ) scM1_1 fullShare (acc9 V c n hn) ∗ Rest1 c)

theorem PhiS1_pos (c : Dev nD) (n : ℕ) (h : n ≤ cfg1.N) (hz : n ≠ 0) :
    PhiS1 V c n h = iprop(owns (c : Thread nD τ) scM1_0 fullShare (acc8 V c (n - 1) (by omega)) ∗ owns (c : Thread nD τ) scM1_1 fullShare (acc9 V c (n - 1) (by omega)) ∗ Rest1 c) := by
  cases n with
  | zero => exact absurd rfl hz
  | succ n => rfl

theorem PhiS1_forget (c : Dev nD) (n : ℕ) (h : n ≤ cfg1.N) :
    PhiS1 V c n h ⊢ iprop((∃ d, owns (c : Thread nD τ) scM1_0 fullShare d) ∗ (∃ d, owns (c : Thread nD τ) scM1_1 fullShare d) ∗ Rest1 c) := by
  cases n with
  | zero => exact PhiA1_open c
  | succ n =>
    show iprop(owns _ _ _ _ ∗ owns _ _ _ _ ∗ Rest1 c) ⊢ _
    iintro ⟨HS0, HS1, HR⟩
    isplitl [HS0]; · iexists _; iexact HS0
    isplitl [HS1]; · iexists _; iexact HS1
    iexact HR

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (acc8 V c t.val t.isLt)
    | ⟨5, _⟩ => k1_pay2 (acc9 V c t.val t.isLt)
    | ⟨6, _⟩ => k1_pay3 (acc8 V c t.val t.isLt) (acc9 V c t.val t.isLt) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (acc8 V c t.val t.isLt) := by dsimp only [dat1]
theorem after1_5 (c : Dev nD) (t : Fin cfg1.N) : (dat1 V c).after 5 t = k1_pay2 (acc9 V c t.val t.isLt) := by dsimp only [dat1]
theorem after1_6 (c : Dev nD) (t : Fin cfg1.N) : (dat1 V c).after 6 t = k1_pay3 (acc8 V c t.val t.isLt) (acc9 V c t.val t.isLt) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = iprop(owns (c : Thread nD τ) scM1_0 fullShare (acc8 V c t.val t.isLt) ∗ owns (c : Thread nD τ) scM1_1 fullShare (acc9 V c t.val t.isLt) ∗ Rest1 c) from rfl]
  rw [PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 50 = 0
  · have h1 : ¬t.val % 50 = 49 := by omega
    have hn1 : ¬cond1_1 (grid1.coords t) := fun h => h1 ((hcond1_1 t).mp h)
    rw [Dat.leavesExact_idle (dat1 V c) 4 t (idle1_of_not hn1) (noFlush1_of flush1_4 t hn1)]
    rw [Dat.leavesExact_idle (dat1 V c) 5 t (idle1_of_not hn1) (noFlush1_of flush1_5 t hn1)]
    rw [Dat.leavesExact_idle (dat1 V c) 6 t (idle1_of_not hn1) (noFlush1_of flush1_6 t hn1)]
    rw [acc8_first V c t h0, acc9_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := PhiS1_forget V c _ _ $$ HΦ
    icases HΦ' with ⟨HS0, HS1, HR⟩
    iapply (run1_A c (grid1.coords t) _ _ _ _ _ _ _ _ _ _ _ _ _ _ _ _ _ _ ((hcond1_0 t).mpr h0) hn1 (iblk1 V c 0 t) (iblk1 V c 1 t) (iblk1 V c 2 t) (iblk1 V c 3 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hz : t.val ≠ 0 := fun h => h0 (by rw [h])
    have hn0 : ¬cond1_0 (grid1.coords t) := fun h => h0 ((hcond1_0 t).mp h)
    rw [PhiS1_pos V c _ _ hz]
    by_cases h1 : t.val % 50 = 49
    · rw [show (dat1 V c).leavesExact 4 t = owns (c : Thread nD τ) (ms1_4 t) fullShare ((dat1 V c).after 4 t) from by
        unfold Dat.leavesExact; rw [liveAt1_4_C t ((hcond1_1 t).mpr h1)], after1_4]
      rw [show (dat1 V c).leavesExact 5 t = owns (c : Thread nD τ) (ms1_5 t) fullShare ((dat1 V c).after 5 t) from by
        unfold Dat.leavesExact; rw [liveAt1_5_C t ((hcond1_1 t).mpr h1)], after1_5]
      rw [show (dat1 V c).leavesExact 6 t = owns (c : Thread nD τ) (ms1_6 t) fullShare ((dat1 V c).after 6 t) from by
        unfold Dat.leavesExact; rw [liveAt1_6_C t ((hcond1_1 t).mpr h1)], after1_6]
      rw [acc8_step V c t h0, acc9_step V c t h0]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ _ _ hn0 ((hcond1_1 t).mpr h1) (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hn1 : ¬cond1_1 (grid1.coords t) := fun h => h1 ((hcond1_1 t).mp h)
      rw [Dat.leavesExact_idle (dat1 V c) 4 t (idle1_of_not hn1) (noFlush1_of flush1_4 t hn1)]
      rw [Dat.leavesExact_idle (dat1 V c) 5 t (idle1_of_not hn1) (noFlush1_of flush1_5 t hn1)]
      rw [Dat.leavesExact_idle (dat1 V c) 6 t (idle1_of_not hn1) (noFlush1_of flush1_6 t hn1)]
      rw [acc8_step V c t h0, acc9_step V c t h0]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ _ _ hn0 hn1 (iblk1 V c 0 t) (iblk1 V c 1 t) (iblk1 V c 2 t) (iblk1 V c 3 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show Pipeline.ΦA spec1 c ⊢ PhiS1 V c 0 (Nat.zero_le _)
  exact Idealize.SL.BI.Entails.refl _

theorem hout1 (c : Dev nD) : (dat1 V c).Φ (Fin.last cfg1.N) ⊢ Pipeline.ΦA spec1 c := by
  show PhiS1 V c (Fin.last cfg1.N).val _ ⊢ _
  exact BIBase.Entails.trans (PhiS1_forget V c _ _) (PhiA1_close c)

end Cert.KernelIdeal.Hand

end
-- ==== Proof.KI.R2Runs.lean ====
import proofs.«413069_j24043226923662_1_alg».proof.Proof.Gen.KernelIdeal.Launch
import proofs.«413069_j24043226923662_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem coord2_1 (t : Fin cfg2.N) : ((grid2.coords t) 1).val = t.val % 400 := by
  show t.val / grid2.stride 1 % 400 = t.val % 400
  rw [show grid2.stride 1 = 1 from by decide, Nat.div_one]

abbrev cond2_0 (i : grid2.Coords) : Prop := (Scalar.cmpi .ne (Scalar.extui (Scalar.cmpi .eq (BitVec.ofNat 32 (i 1).val) 0#32)) 0#32) = 1#1

theorem cond2_0_iff : ∀ j : Fin 400, (Scalar.cmpi .ne (Scalar.extui (Scalar.cmpi .eq (BitVec.ofNat 32 j.val) 0#32)) 0#32) = 1#1 ↔ j.val = 0 := by
  decide +kernel

theorem hcond2_0 : ∀ t : Fin cfg2.N, cond2_0 (grid2.coords t) ↔ t.val % 400 = 0 := fun t => by
  rw [← coord2_1 t]; exact cond2_0_iff (grid2.coords t 1)

abbrev cond2_1 (i : grid2.Coords) : Prop := k2_cond2 i = 1#1

theorem cond2_1_iff : ∀ j : Fin 400, (Scalar.cmpi .ne (Scalar.extui (Scalar.cmpi .eq (BitVec.ofNat 32 j.val) 399#32)) 0#32) = 1#1 ↔ j.val = 399 := by
  decide +kernel

theorem hcond2_1 : ∀ t : Fin cfg2.N, cond2_1 (grid2.coords t) ↔ t.val % 400 = 399 := fun t => by
  rw [← coord2_1 t]; exact cond2_1_iff (grid2.coords t 1)

theorem coord2_0 (t : Fin cfg2.N) : ((grid2.coords t) 0).val = t.val / 400 % 50 := by
  show t.val / grid2.stride 0 % 50 = t.val / 400 % 50
  rw [show grid2.stride 0 = 400 from by decide]

theorem index2_3_zero (t : Fin cfg2.N) : win2_3.index t 0 = t.val / 400 % 50 := by
  show (BitVec.ofNat 32 ((grid2.coords t) 0).val).toNat = t.val / 400 % 50
  rw [BitVec.toNat_ofNat, coord2_0 t]
  exact Nat.mod_eq_of_lt (by omega)
theorem index2_3_one (t : Fin cfg2.N) : win2_3.index t 1 = 0 := rfl

theorem flush2_3 : ∀ t : Fin cfg2.N, (cfg2.win 3).flush t = true ↔ t.val % 400 = 399 := fun t => by
  have hN : grid2.N = 20000 := N_2
  have hlt : t.val < 20000 := lt_of_lt_of_eq t.isLt hN
  show (win2_3.isOut && (decide (t.val + 1 = grid2.N) || decide (∃ h : t.val + 1 < grid2.N, win2_3.index ⟨t.val + 1, h⟩ ≠ win2_3.index t))) = true ↔ _
  rw [Bool.and_eq_true, Bool.or_eq_true, decide_eq_true_eq, decide_eq_true_eq]
  constructor
  · rintro ⟨-, h | ⟨h, hne⟩⟩
    · omega
    · by_contra hc
      apply hne
      funext a
      match a with
      | ⟨0, _⟩ =>
        show win2_3.index ⟨t.val + 1, h⟩ 0 = win2_3.index t 0
        rw [index2_3_zero, index2_3_zero]; dsimp only; omega
      | ⟨1, _⟩ => rfl
  · intro h
    refine ⟨rfl, ?_⟩
    by_cases hl : t.val + 1 = grid2.N
    · exact Or.inl hl
    · refine Or.inr ⟨by omega, fun he => ?_⟩
      have e0 := congrFun he 0
      rw [index2_3_zero, index2_3_zero] at e0
      dsimp only at e0
      omega

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idle2_3_of_not (i : grid2.Coords) (h : ¬cond2_1 i) : cfg2.idle 3 i = true := by
  show (!(k2_cond2 i == 1#1)) = true
  rw [Bool.not_eq_true', beq_eq_false_iff_ne]; exact h
theorem live2_3_of (i : grid2.Coords) (h : cond2_1 i) : cfg2.idle 3 i = false := by
  show (!(k2_cond2 i == 1#1)) = false
  rw [Bool.not_eq_false', beq_iff_eq]; exact h

theorem noFlush2_3_of_not (t : Fin cfg2.N) (h : ¬cond2_1 (grid2.coords t)) : (cfg2.win 3).flush t = false :=
  Bool.eq_false_iff.mpr fun hf => h ((hcond2_1 t).mpr ((flush2_3 t).mp hf))

abbrev VO2_3 : View sig .tc .vmem S1000x64 .f32 := (Memref.whole cc2_stg3_0 : Memref sig .tc .vmem S1000x64 .f32).view

abbrev ms2_0 (t : Fin cfg2.N) : Memref sig .tc .vmem S2000x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1000x64 .f32 := win2_3.stage (cfg2.slots t 3)
abbrev hs2_3 (t : Fin cfg2.N) : (ms2_3 t).IsWhole := hstage2_3 ((cfg2.slots t 3).cast nbuf2_3)

abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev scM2_0 : Memref sig .tc .vmem S1000x64 .f32 := Memref.whole cc2_scratch0

abbrev VS2_0 : View sig .tc .vmem S1000x64 .f32 := scM2_0.view

def Rest2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiA2_open (c : Dev nD) :
    (Pipeline.ΦA spec2 c : sProp 𝕄) ⊢ iprop((∃ d, owns (c : Thread nD τ) scM2_0 fullShare d) ∗ Rest2 (F := F) c) := by
  unfold Pipeline.ΦA Rest2; rw [scopedRest2_eq]; simp only [scM2_0, owns_whole]
  iintro ⟨⟨H0, H1, H2, H3, H4, H5, H6, H7, H8, H9, H10, H11, H12, H13, H14, H15, H16, H17, H18, H19, HS0⟩, Hg⟩
  isplitl [HS0]; · iexact HS0
  isplitl [H0 H1 H2 H3 H4 H5 H6 H7 H8 H9 H10 H11 H12 H13 H14 H15 H16 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iexact Hg

theorem PhiA2_close (c : Dev nD) :
    iprop((∃ d, owns (c : Thread nD τ) scM2_0 fullShare d) ∗ Rest2 (F := F) c) ⊢ (Pipeline.ΦA spec2 c : sProp 𝕄) := by
  unfold Pipeline.ΦA Rest2; rw [scopedRest2_eq]; simp only [scM2_0, owns_whole]
  iintro ⟨HS0, ⟨H0, H1, H2, H3, H4, H5, H6, H7, H8, H9, H10, H11, H12, H13, H14, H15, H16, H17, H18, H19⟩, Hg⟩
  isplitl [H0 H1 H2 H3 H4 H5 H6 H7 H8 H9 H10 H11 H12 H13 H14 H15 H16 H17 H18 H19 HS0]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact HS0
  iexact Hg

end Cert.KernelIdeal.Hand

end
-- ==== Proof.KI.R2RunA.lean ====
import proofs.«413069_j24043226923662_1_alg».proof.Proof.KI.R2Runs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r2_off_zero : (![0, 0] : Fin 2 → Nat) = fun _ => 0 := funext fun a => by fin_cases a <;> rfl

theorem run2_A (c : Dev nD) (i : grid2.Coords) (arg2 : Memref sig .tc .vmem S2000x64 .bf16) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1000x64 .f32) (harg5 : arg5.IsWhole) (arg6 : Memref sig .tc .vmem S1000x64 .f32) (harg6 : arg6.IsWhole) (hc0 : cond2_0 i) (hc1 : ¬cond2_1 i)
    (x0 : Vec F S2000x64 .bf16) (x1 : Vec F S2000x1 .i32) (x2 : Vec F S2000x1 .f32) (xi3 : Vec F S1000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 i x1 x2 x0 k2_pay1)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (View.read_writes_eq_canon _ _ _ (View.cover_of_tiledL _ S1000x64.size ?_)).trans ?_
  · sl_kernel_rfl
  sl_unfold_words
  rw [View.canon_cons_unit_zero (S := S1000x64) r2_off_zero]
  simp only [View.readAt_eq_ld, harg2.read_unread, harg3.read_unread, harg4.read_unread, View.readCov_unit_zero (S := S1000x64) _ r2_off_zero, View.ld_unit_zero (S := S2000x64) r2_off_zero, View.ld_unit_zero (S := S2000x1) r2_off_zero, View.ld_unit_zero (S := S1000x64) r2_off_zero]

end Cert.KernelIdeal.Hand

end
-- ==== Proof.KI.R2RunB.lean ====
import proofs.«413069_j24043226923662_1_alg».proof.Proof.KI.R2RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem run2_B (c : Dev nD) (i : grid2.Coords) (arg2 : Memref sig .tc .vmem S2000x64 .bf16) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1000x64 .f32) (harg5 : arg5.IsWhole) (arg6 : Memref sig .tc .vmem S1000x64 .f32) (harg6 : arg6.IsWhole) (hc0 : ¬cond2_0 i) (hc1 : ¬cond2_1 i)
    (x0 : Vec F S2000x64 .bf16) (x1 : Vec F S2000x1 .i32) (x2 : Vec F S2000x1 .f32) (xs0 : Vec F S1000x64 .f32) (xi3 : Vec F S1000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 i x1 x2 x0 xs0)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (View.read_writes_eq_canon _ _ _ (View.cover_of_tiledL _ S1000x64.size ?_)).trans ?_
  · sl_kernel_rfl
  sl_unfold_words
  rw [View.canon_unit_zero (S := S1000x64) r2_off_zero]
  simp only [View.readAt_eq_ld, harg2.read_unread, harg3.read_unread, harg4.read_unread, harg6.read_unread, View.ld_unit_zero (S := S2000x64) r2_off_zero, View.ld_unit_zero (S := S2000x1) r2_off_zero, View.ld_unit_zero (S := S1000x64) r2_off_zero]

end Cert.KernelIdeal.Hand

end
-- ==== Proof.KI.R2RunC.lean ====
import proofs.«413069_j24043226923662_1_alg».proof.Proof.KI.R2RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem run2_C (c : Dev nD) (i : grid2.Coords) (arg2 : Memref sig .tc .vmem S2000x64 .bf16) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1000x64 .f32) (harg5 : arg5.IsWhole) (arg6 : Memref sig .tc .vmem S1000x64 .f32) (harg6 : arg6.IsWhole) (hc0 : ¬cond2_0 i) (hc1 : cond2_1 i)
    (x0 : Vec F S2000x64 .bf16) (x1 : Vec F S2000x1 .i32) (x2 : Vec F S2000x1 .f32) (xs0 : Vec F S1000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 i x1 x2 x0 xs0)) ∗ owns (c : Thread nD τ) arg6 fullShare (k2_pay2 i x1 x2 x0 xs0)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (View.cover_of_tiledL _ S1000x64.size ?_)).trans ?_
    · sl_kernel_rfl
    sl_unfold_words
    rw [View.canon_unit_zero (S := S1000x64) r2_off_zero]
    simp only [View.readAt_eq_ld, harg2.read_unread, harg3.read_unread, harg4.read_unread, harg6.read_unread, View.readCov_unit_zero (S := S1000x64) _ r2_off_zero, View.ld_unit_zero (S := S2000x64) r2_off_zero, View.ld_unit_zero (S := S2000x1) r2_off_zero, View.ld_unit_zero (S := S1000x64) r2_off_zero]
  iexists _; isplitr
  swap; · iexact HS0
  ipureintro
  refine (View.read_writes_eq_canon _ _ _ (View.cover_of_tiledL _ S1000x64.size ?_)).trans ?_
  · sl_kernel_rfl
  sl_unfold_words
  rw [View.canon_unit_zero (S := S1000x64) r2_off_zero]
  simp only [View.readAt_eq_ld, harg2.read_unread, harg3.read_unread, harg4.read_unread, harg6.read_unread, View.ld_unit_zero (S := S2000x64) r2_off_zero, View.ld_unit_zero (S := S2000x1) r2_off_zero, View.ld_unit_zero (S := S1000x64) r2_off_zero]

end Cert.KernelIdeal.Hand

end
-- ==== Proof.KI.R2Frame.lean ====
import proofs.«413069_j24043226923662_1_alg».proof.Proof.KI.R2RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The accumulator after point n: the point's contribution added to what the point before left, from zero at the first destination tile of each node tile.
def S2 (c : Dev nD) : (n : ℕ) → n < cfg2.N → Vec F S1000x64 .f32
  | 0, hn => k2_pay2 (grid2.coords ⟨0, hn⟩) (iblk2 V c 1 ⟨0, hn⟩) (iblk2 V c 2 ⟨0, hn⟩) (iblk2 V c 0 ⟨0, hn⟩) k2_pay1
  | n + 1, hn => k2_pay2 (grid2.coords ⟨n + 1, hn⟩) (iblk2 V c 1 ⟨n + 1, hn⟩) (iblk2 V c 2 ⟨n + 1, hn⟩) (iblk2 V c 0 ⟨n + 1, hn⟩) (if (n + 1) % 400 = 0 then k2_pay1 else S2 c n (Nat.lt_of_succ_lt hn))

theorem S2_first (c : Dev nD) (t : Fin cfg2.N) (h : t.val % 400 = 0) :
    S2 V c t.val t.isLt = k2_pay2 (grid2.coords t) (iblk2 V c 1 t) (iblk2 V c 2 t) (iblk2 V c 0 t) (k2_pay1 (F := F)) := by
  obtain ⟨n, hn⟩ := t
  cases n with
  | zero => rfl
  | succ n => exact congrArg _ (if_pos h)

theorem S2_step (c : Dev nD) (t : Fin cfg2.N) (h : t.val % 400 ≠ 0) :
    S2 V c t.val t.isLt = k2_pay2 (grid2.coords t) (iblk2 V c 1 t) (iblk2 V c 2 t) (iblk2 V c 0 t) (S2 V c (t.val - 1) (Nat.lt_of_le_of_lt (Nat.sub_le _ _) t.isLt)) := by
  obtain ⟨n, hn⟩ := t
  cases n with
  | zero => exact absurd (Nat.zero_mod _) h
  | succ n => exact congrArg _ (if_neg h)

def PhiS2 (c : Dev nD) : (n : ℕ) → n ≤ cfg2.N → sProp 𝕄
  | 0, _ => Pipeline.ΦA spec2 c
  | n + 1, hn => iprop(owns (c : Thread nD τ) scM2_0 fullShare (S2 V c n hn) ∗ Rest2 c)

theorem PhiS2_pos (c : Dev nD) (n : ℕ) (h : n ≤ cfg2.N) (hz : n ≠ 0) :
    PhiS2 V c n h = iprop(owns (c : Thread nD τ) scM2_0 fullShare (S2 V c (n - 1) (by omega)) ∗ Rest2 c) := by
  cases n with
  | zero => exact absurd rfl hz
  | succ n => rfl

theorem PhiS2_forget (c : Dev nD) (n : ℕ) (h : n ≤ cfg2.N) :
    PhiS2 V c n h ⊢ iprop((∃ d, owns (c : Thread nD τ) scM2_0 fullShare d) ∗ Rest2 c) := by
  cases n with
  | zero => exact PhiA2_open c
  | succ n =>
    show iprop(owns _ _ _ _ ∗ Rest2 c) ⊢ _
    iintro ⟨HS0, HR⟩
    isplitl [HS0]; · iexists _; iexact HS0
    iexact HR

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (S2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (S2 V c t.val t.isLt) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = iprop(owns (c : Thread nD τ) scM2_0 fullShare (S2 V c t.val t.isLt) ∗ Rest2 c) from rfl]
  rw [PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 400 = 0
  · have h1 : ¬t.val % 400 = 399 := by omega
    have hn1 : ¬cond2_1 (grid2.coords t) := fun h => h1 ((hcond2_1 t).mp h)
    rw [Dat.leavesExact_idle (dat2 V c) 3 t (idle2_3_of_not _ hn1) (noFlush2_3_of_not t hn1), S2_first V c t h0]
    iintro ⟨HΦ, Ho, ⟨%d0, H0⟩, ⟨%d1, H1⟩, ⟨%d2, H2⟩, ⟨%d3, H3⟩⟩
    ihave HΦ' := PhiS2_forget V c _ _ $$ HΦ
    icases HΦ' with ⟨HS0, HR⟩
    iapply (run2_A c (grid2.coords t) _ _ _ _ _ _ _ _ _ _ ((hcond2_0 t).mpr h0) hn1 (iblk2 V c 0 t) (iblk2 V c 1 t) (iblk2 V c 2 t) _ Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 HR]
    · isplitl [HS0]; · iexact HS0
      iexact HR
    isplitl [Ho]; · iexact Ho
    isplitl [H0]; · iexact H0
    isplitl [H1]; · iexact H1
    isplitl [H2]; · iexact H2
    iexists _; iexact H3
  · have hz : t.val ≠ 0 := fun h => h0 (by rw [h])
    have hn0 : ¬cond2_0 (grid2.coords t) := fun h => h0 ((hcond2_0 t).mp h)
    rw [PhiS2_pos V c _ _ hz]
    by_cases h1 : t.val % 400 = 399
    · rw [show (dat2 V c).leavesExact 3 t = owns (c : Thread nD τ) (ms2_3 t) fullShare ((dat2 V c).after 3 t) from by
        unfold Dat.leavesExact; rw [live2_3_of _ ((hcond2_1 t).mpr h1)], after2_3, S2_step V c t h0]
      iintro ⟨⟨HS0, HR⟩, Ho, ⟨%d0, H0⟩, ⟨%d1, H1⟩, ⟨%d2, H2⟩, ⟨%d3, H3⟩⟩
      iapply (run2_C c (grid2.coords t) _ _ _ _ _ _ _ _ _ _ hn0 ((hcond2_1 t).mpr h1) (iblk2 V c 0 t) (iblk2 V c 1 t) (iblk2 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR]
      · isplitl [HS0]; · iexact HS0
        iexact HR
      isplitl [Ho]; · iexact Ho
      isplitl [H0]; · iexact H0
      isplitl [H1]; · iexact H1
      isplitl [H2]; · iexact H2
      iexact H3
    · have hn1 : ¬cond2_1 (grid2.coords t) := fun h => h1 ((hcond2_1 t).mp h)
      rw [Dat.leavesExact_idle (dat2 V c) 3 t (idle2_3_of_not _ hn1) (noFlush2_3_of_not t hn1), S2_step V c t h0]
      iintro ⟨⟨HS0, HR⟩, Ho, ⟨%d0, H0⟩, ⟨%d1, H1⟩, ⟨%d2, H2⟩, ⟨%d3, H3⟩⟩
      iapply (run2_B c (grid2.coords t) _ _ _ _ _ _ _ _ _ _ hn0 hn1 (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR]
      · isplitl [HS0]; · iexact HS0
        iexact HR
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  show Pipeline.ΦA spec2 c ⊢ PhiS2 V c 0 (Nat.zero_le _)
  exact Idealize.SL.BI.Entails.refl _

theorem hout2 (c : Dev nD) : (dat2 V c).Φ (Fin.last cfg2.N) ⊢ Pipeline.ΦA spec2 c := by
  show PhiS2 V c (Fin.last cfg2.N).val _ ⊢ _
  exact BIBase.Entails.trans (PhiS2_forget V c _ _) (PhiA2_close c)

end Cert.KernelIdeal.Hand

end
-- ==== Proof.KI.Run.lean ====
import proofs.«413069_j24043226923662_1_alg».proof.Proof.KI.R0
import proofs.«413069_j24043226923662_1_alg».proof.Proof.KI.R1Frame
import proofs.«413069_j24043226923662_1_alg».proof.Proof.KI.R2Frame
import proofs.«413069_j24043226923662_1_alg».proof.Proof.Gen.KernelIdeal.Regions
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h' : (iprop(Pipeline.scopedRest spec1 c ∗ ∃ r, prngReg c r) : sProp 𝕄) ⊢ (dat1 (V2 m ρ) c).Φ 0 := by
      have h := hin1 (F := F) (V2 m ρ) c; unfold Pipeline.ΦA at h; exact h
    rw [show (pdats m ρ 1 c).Φ 0 = (dat1 (V2 m ρ) c).Φ 0 from rfl]
    iintro ⟨Hp, -, Hr⟩
    iapply h'
    isplitl [Hr]; · iexact Hr
    iexact Hp
  hout c := by
    have h' : (dat1 (V2 m ρ) c).Φ (Fin.last cfg1.N) ⊢ (iprop(Pipeline.scopedRest spec1 c ∗ ∃ r, prngReg c r) : sProp 𝕄) := by
      have h := hout1 (F := F) (V2 m ρ) c; unfold Pipeline.ΦA at h; exact h
    rw [Pipeline.ownSems0_none, show (pdats m ρ 1 c).Φ (Fin.last _) = (dat1 (V2 m ρ) c).Φ (Fin.last cfg1.N) from rfl]
    iintro H
    ihave H2 := h' $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h' : (iprop(Pipeline.scopedRest spec2 c ∗ ∃ r, prngReg c r) : sProp 𝕄) ⊢ (dat2 (V4 m ρ) c).Φ 0 := by
      have h := hin2 (F := F) (V4 m ρ) c; unfold Pipeline.ΦA at h; exact h
    rw [show (pdats m ρ 2 c).Φ 0 = (dat2 (V4 m ρ) c).Φ 0 from rfl]
    iintro ⟨Hp, -, Hr⟩
    iapply h'
    isplitl [Hr]; · iexact Hr
    iexact Hp
  hout c := by
    have h' : (dat2 (V4 m ρ) c).Φ (Fin.last cfg2.N) ⊢ (iprop(Pipeline.scopedRest spec2 c ∗ ∃ r, prngReg c r) : sProp 𝕄) := by
      have h := hout2 (F := F) (V4 m ρ) c; unfold Pipeline.ΦA at h; exact h
    rw [Pipeline.ownSems0_none, show (pdats m ρ 2 c).Φ (Fin.last _) = (dat2 (V4 m ρ) c).Φ (Fin.last cfg2.N) from rfl]
    iintro H
    ihave H2 := h' $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Run

section Reads

variable (m : (ℓ : Loc nD τ sig) → Buf (Elt F) ℓ) (ρ : Dev nD → PrngReg)

theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

theorem W4_of (c : Dev nD) (r : Ref sig .tc) (h : r ∉ (hostOps2_W : List (Ref sig .tc))) :
    W4 m ρ c (Proc.devRef .tc r) = W3 m ρ c (Proc.devRef .tc r) :=
  StableHlo.after_of_writes_sub hostOps2 _ hostOps2_writes h

theorem W5_keep (c : Dev nD) (r : Ref sig .tc) (h5 : ∀ w, Pipeline.arrRef spec2 w ≠ r) (h4 : r ∉ (hostOps2_W : List (Ref sig .tc)))
    (h3 : ∀ w, Pipeline.arrRef spec1 w ≠ r) (h2 : W2 m ρ c (Proc.devRef .tc r) = W1 m ρ c (Proc.devRef .tc r)) (h1 : r ∉ (hostOps0_W : List (Ref sig .tc))) :
    W5 m ρ c (Proc.devRef .tc r) = m ((c : Thread nD τ).loc r) :=
  (W5_of_ne m ρ c r h5).trans ((W4_of m ρ c r h4).trans ((W3_of_ne m ρ c r h3).trans (h2.trans (W1_of m ρ c r h1))))

theorem W5_main_arg0 (c : Dev nD) : W5 m ρ c (Proc.devRef .tc main_arg0) = m ((c : Thread nD τ).loc main_arg0) :=
  W5_keep m ρ c main_arg0 (by decide) (by decide) (by decide) ((W2_arr m ρ c 0).trans (((dat0 (V1 m ρ) c).arrAt_in 0 rfl _).trans (A_eq0 (V1 m ρ) c 0))) (by decide)
theorem W5_main_arg1 (c : Dev nD) : W5 m ρ c (Proc.devRef .tc main_arg1) = m ((c : Thread nD τ).loc main_arg1) :=
  W5_keep m ρ c main_arg1 (by decide) (by decide) (by decide) (W2_of_ne m ρ c main_arg1 (by decide)) (by decide)
theorem W5_main_arg2 (c : Dev nD) : W5 m ρ c (Proc.devRef .tc main_arg2) = m ((c : Thread nD τ).loc main_arg2) :=
  W5_keep m ρ c main_arg2 (by decide) (by decide) (by decide) ((W2_arr m ρ c 1).trans (((dat0 (V1 m ρ) c).arrAt_in 1 rfl _).trans (A_eq0 (V1 m ρ) c 1))) (by decide)
theorem W5_main_arg3 (c : Dev nD) : W5 m ρ c (Proc.devRef .tc main_arg3) = m ((c : Thread nD τ).loc main_arg3) :=
  W5_keep m ρ c main_arg3 (by decide) (by decide) (by decide) (W2_of_ne m ρ c main_arg3 (by decide)) (by decide)

theorem run_result : θ_run defs (onTc (τ := τ) (main (F := F))) ⟨m, fun _ => 0, ρ⟩ (fun r => ∀ c : Dev nD,
      r.2.mem ((c.tc : Thread nD τ).loc main_v22) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v22 (by decide))).trans (W5_arr m ρ c 3),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

theorem V4_wsrc (c : Dev nD) : V4 m ρ c main_v9_0 = (dat1 (V2 m ρ) c).arrAt 4 cfg1.N :=
  (W4_of m ρ c main_v9_0 (by decide)).trans (W3_arr m ρ c 4)

theorem V4_dst (c : Dev nD) : V4 m ρ c main_v5 = V1 m ρ c main_v5 :=
  (W4_of m ρ c main_v5 (by decide)).trans
    (((W3_arr m ρ c 2).trans (((dat1 (V2 m ρ) c).arrAt_in 2 rfl _).trans (A_eq1 (V2 m ρ) c 2))).trans
      (W2_of_ne m ρ c main_v5 (by decide)))

theorem V3_escore (c : Dev nD) : V3 m ρ c main_v9_2 = (dat1 (V2 m ρ) c).arrAt 6 cfg1.N := W3_arr m ρ c 6

theorem V2_wh (c : Dev nD) : V2 m ρ c main_v8 = (dat0 (V1 m ρ) c).arrAt 2 cfg0.N := W2_arr m ρ c 2

theorem V2_src (c : Dev nD) : V2 m ρ c main_v2 = V1 m ρ c main_v2 := W2_of_ne m ρ c main_v2 (by decide)
theorem V2_dst (c : Dev nD) : V2 m ρ c main_v5 = V1 m ρ c main_v5 := W2_of_ne m ρ c main_v5 (by decide)
theorem V2_asum (c : Dev nD) : V2 m ρ c main_v7 = V1 m ρ c main_v7 := W2_of_ne m ρ c main_v7 (by decide)

theorem V1_h (c : Dev nD) : V1 m ρ c main_arg0 = m ((c : Thread nD τ).loc main_arg0) := W1_of m ρ c main_arg0 (by decide)
theorem V1_w (c : Dev nD) : V1 m ρ c main_arg2 = m ((c : Thread nD τ).loc main_arg2) := W1_of m ρ c main_arg2 (by decide)

end Reads

section HostStages

def edgeCol (row : Fin 2 → Nat) (hs : S2x800000.Slices row S1x800000) (ei : IVec S2x800000 32) : IVec S800000x1 32 :=
  shapeCast S800000x1 (shapeCast S800000 (extractStridedSlice S1x800000 row ei hs) shapeCasts_S1x800000_S800000) shapeCasts_S800000_S800000x1

def srcCol (ei : IVec S2x800000 32) : IVec S800000x1 32 := edgeCol ![0, 0] slices_S2x800000_S1x800000_0_0 ei

def dstCol (ei : IVec S2x800000 32) : IVec S800000x1 32 := edgeCol ![1, 0] slices_S2x800000_S1x800000_1_0 ei

def scale11 (a : FVec F S128x1 .f32) : FVec F S1x1 .f32 :=
  shapeCast S1x1 (Host.reduceAdd a (constant S_ .f32 0x00000000#32) reducesTo_S128x1_S_d0_1 h_S_) shapeCasts_S_S1x1

def softmaxFlat (x : FVec F S800000 .f32) : FVec F S800000 .f32 :=
  Host.divf
    (Host.exp (subf x (broadcastInDim S800000 ![0] bcast_S1_S800000_0 (broadcastInDim S1 ![] bcast_S_S1
      (maximumf (constant S_ .f32 0xFF800000#32) (Host.reduce FloatOps.maximumf x (constant S_ .f32 0xFF800000#32) reducesTo_S800000_S_d0 h_S_))))))
    (broadcastInDim S800000 ![0] bcast_S1_S800000_0 (broadcastInDim S1 ![] bcast_S_S1
      (Host.reduceAdd
        (Host.exp (subf x (broadcastInDim S800000 ![0] bcast_S1_S800000_0 (broadcastInDim S1 ![] bcast_S_S1
          (maximumf (constant S_ .f32 0xFF800000#32) (Host.reduce FloatOps.maximumf x (constant S_ .f32 0xFF800000#32) reducesTo_S800000_S_d0 h_S_))))))
        (constant S_ .f32 0x00000000#32) reducesTo_S800000_S_d0 h_S_)))

def attnCol (x : FVec F S800000x1 .f32) : FVec F S800000x1 .f32 :=
  shapeCast S800000x1 (softmaxFlat (shapeCast S800000 x shapeCasts_S800000x1_S800000)) shapeCasts_S800000_S800000x1

variable (m : (ℓ : Loc nD τ sig) → Buf (Elt F) ℓ) (ρ : Dev nD → PrngReg)

theorem V1_src (c : Dev nD) : (V1 m ρ c main_v2 : IVec S800000x1 32) = srcCol (m ((c : Thread nD τ).loc main_arg1)) := by
  show StableHlo.after hostOps0 (W0 m ρ c) (Proc.devRef .tc main_v2) = _
  after_results; rfl
theorem V1_dst (c : Dev nD) : (V1 m ρ c main_v5 : IVec S800000x1 32) = dstCol (m ((c : Thread nD τ).loc main_arg1)) := by
  show StableHlo.after hostOps0 (W0 m ρ c) (Proc.devRef .tc main_v5) = _
  after_results; rfl
theorem V1_scale (c : Dev nD) : (V1 m ρ c main_v7 : FVec F S1x1 .f32) = scale11 (m ((c : Thread nD τ).loc main_arg3)) := by
  show StableHlo.after hostOps0 (W0 m ρ c) (Proc.devRef .tc main_v7) = _
  after_results; rfl
theorem V4_attn (c : Dev nD) : (V4 m ρ c main_v21 : FVec F S800000x1 .f32) = attnCol (V3 m ρ c main_v9_2) := by
  show StableHlo.after hostOps2 (W3 m ρ c) (Proc.devRef .tc main_v21) = _
  after_results; rfl

end HostStages

end Cert.KernelIdeal.Hand

end
-- ==== Proof.RefSpec.lean ====
import proofs.«413069_j24043226923662_1_alg».proof.ReferenceIdeal

noncomputable section

namespace Cert.ReferenceIdeal.Hand

open Cert.ReferenceIdeal Idealize.ShloMosaic

variable {F : FTy → Type} [FloatOps F] [Facts]
open Facts₀ Facts

def wh (h : FVec F S50000x128 .f32) (W : FVec F S128x64 .f32) : FVec F S50000x64 .f32 :=
  Host.dotGeneral dot_S50000x128_S128x64_S50000x64_1_0_0_1_n_n none h W

def srcRow (ei : IVec S2x800000 32) : IVec S800000 32 :=
  shapeCast S800000 (extractStridedSlice S1x800000 ![0, 0] ei slices_S2x800000_S1x800000_0_0) shapeCasts_S1x800000_S800000

def dstRow (ei : IVec S2x800000 32) : IVec S800000 32 :=
  shapeCast S800000 (extractStridedSlice S1x800000 ![1, 0] ei slices_S2x800000_S1x800000_1_0) shapeCasts_S1x800000_S800000

def norm (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

def idxCol (x : IVec S800000 32) : IVec S800000x1 32 :=
  broadcastInDim S800000x1 ![0] bcast_S800000_S800000x1_0 (norm x)

def gath (t : FVec F S50000x64 .f32) (x : IVec S800000 32) : FVec F S800000x64 .f32 :=
  Host.gather gather_S50000x64_S800000x1_S800000x64_1_0_n_n_0_1_164 t (idxCol x)

def score (t : FVec F S50000x64 .f32) (src dst : IVec S800000 32) : FVec F S800000 .f32 :=
  Host.reduceAdd (mulf (gath t src) (gath t dst)) (constant S_ .f32 0x00000000#32) reducesTo_S800000x64_S800000_d1 h_S_

def asum (a : FVec F S128x1 .f32) : FVec F S_ .f32 :=
  Host.reduceAdd a (constant S_ .f32 0x00000000#32) reducesTo_S128x1_S_d0_1 h_S_

def raw (s : FVec F S800000 .f32) (c : FVec F S_ .f32) : FVec F S800000 .f32 :=
  mulf s (broadcastInDim S800000 ![] bcast_S_S800000 c)

def lrelu (x : FVec F S800000 .f32) : FVec F S800000 .f32 :=
  select (cmpf .oge x (broadcastInDim S800000 ![] bcast_S_S800000 (constant S_ .f32 0x00000000#32))) x
    (mulf (broadcastInDim S800000 ![] bcast_S_S800000 (constant S_ .f32 0x3E4CCCCD#32)) x)

def smax (x : FVec F S800000 .f32) : FVec F S_ .f32 :=
  maximumf (constant S_ .f32 0xFF800000#32)
    (Host.reduce FloatOps.maximumf x (constant S_ .f32 0xFF800000#32) reducesTo_S800000_S_d0 h_S_)

def sexp (x : FVec F S800000 .f32) : FVec F S800000 .f32 :=
  Host.exp (subf x (broadcastInDim S800000 ![0] bcast_S1_S800000_0 (broadcastInDim S1 ![] bcast_S_S1 (smax x))))

def softmax (x : FVec F S800000 .f32) : FVec F S800000 .f32 :=
  Host.divf (sexp x)
    (broadcastInDim S800000 ![0] bcast_S1_S800000_0 (broadcastInDim S1 ![] bcast_S_S1
      (Host.reduceAdd (sexp x) (constant S_ .f32 0x00000000#32) reducesTo_S800000_S_d0 h_S_)))

def upd (p : FVec F S800000 .f32) (g : FVec F S800000x64 .f32) : FVec F S800000x64 .f32 :=
  mulf (broadcastInDim S800000x64 ![0, 1] bcast_S800000x1_S800000x64_0_1 (broadcastInDim S800000x1 ![0] bcast_S800000_S800000x1_0 p)) g

def scat (dst : IVec S800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) (idxCol dst) u

def elu (x : FVec F S50000x64 .f32) : FVec F S50000x64 .f32 :=
  select (cmpf .ogt x (broadcastInDim S50000x64 ![] bcast_S_S50000x64 (constant S_ .f32 0x00000000#32))) x
    (mulf (broadcastInDim S50000x64 ![] bcast_S_S50000x64 (constant S_ .f32 0x3F800000#32))
      (Host.expm1 (select (cmpf .ogt x (broadcastInDim S50000x64 ![] bcast_S_S50000x64 (constant S_ .f32 0x00000000#32)))
        (broadcastInDim S50000x64 ![] bcast_S_S50000x64 (constant S_ .f32 0x00000000#32)) x)))

def logits (h : FVec F S50000x128 .f32) (ei : IVec S2x800000 32) (W : FVec F S128x64 .f32) (a : FVec F S128x1 .f32) :
    FVec F S800000 .f32 :=
  lrelu (raw (score (wh h W) (srcRow ei) (dstRow ei)) (asum a))

def updates (h : FVec F S50000x128 .f32) (ei : IVec S2x800000 32) (W : FVec F S128x64 .f32) (a : FVec F S128x1 .f32) :
    FVec F S800000x64 .f32 :=
  upd (softmax (logits h ei W a)) (gath (wh h W) (srcRow ei))

def aggregate (h : FVec F S50000x128 .f32) (ei : IVec S2x800000 32) (W : FVec F S128x64 .f32) (a : FVec F S128x1 .f32) :
    FVec F S50000x64 .f32 :=
  scat (dstRow ei) (updates h ei W a)

def result (h : FVec F S50000x128 .f32) (ei : IVec S2x800000 32) (W : FVec F S128x64 .f32) (a : FVec F S128x1 .f32) :
    FVec F S50000x64 .f32 :=
  elu (aggregate h ei W a)

end Cert.ReferenceIdeal.Hand

end
-- ==== Proof.RefRun.lean ====
import proofs.«413069_j24043226923662_1_alg».proof.Proof.RefSpec
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

abbrev opsA : List (HloOp τ sig (Elt F)) :=
  [ binary main_arg0 main_arg2 main_v0 ((fun l r => Host.dotGeneral dot_S50000x128_S128x64_S50000x64_1_0_0_1_n_n none l r)),
    unary main_arg1 main_v1 ((extractStridedSlice S1x800000 ![0, 0] · slices_S2x800000_S1x800000_0_0)),
    reshape main_v1 main_v2 rfl shapeCasts_S1x800000_S800000,
    unary main_arg1 main_v3 ((extractStridedSlice S1x800000 ![1, 0] · slices_S2x800000_S1x800000_1_0)),
    reshape main_v3 main_v4 rfl shapeCasts_S1x800000_S800000 ]

abbrev opsB : List (HloOp τ sig (Elt F)) :=
  [ nullary main_c (constantI S_ 32 0#32),
    unary main_c main_v5 (broadcastInDim S800000 ![] bcast_S_S800000),
    binary main_v2 main_v5 main_v6 (cmpi .slt),
    nullary main_c_0 (constantI S_ 32 50000#32),
    unary main_c_0 main_v7 (broadcastInDim S800000 ![] bcast_S_S800000),
    binary main_v2 main_v7 main_v8 (addi),
    ternary main_v6 main_v8 main_v2 main_v9 (select),
    unary main_v9 main_v10 (broadcastInDim S800000x1 ![0] bcast_S800000_S800000x1_0),
    binary main_v0 main_v10 main_v11 ((fun x i => Host.gather gather_S50000x64_S800000x1_S800000x64_1_0_n_n_0_1_164 x i)),
    nullary main_c_1 (constantI S_ 32 0#32),
    unary main_c_1 main_v12 (broadcastInDim S800000 ![] bcast_S_S800000),
    binary main_v4 main_v12 main_v13 (cmpi .slt),
    nullary main_c_2 (constantI S_ 32 50000#32),
    unary main_c_2 main_v14 (broadcastInDim S800000 ![] bcast_S_S800000),
    binary main_v4 main_v14 main_v15 (addi),
    ternary main_v13 main_v15 main_v4 main_v16 (select),
    unary main_v16 main_v17 (broadcastInDim S800000x1 ![0] bcast_S800000_S800000x1_0),
    binary main_v0 main_v17 main_v18 ((fun x i => Host.gather gather_S50000x64_S800000x1_S800000x64_1_0_n_n_0_1_164 x i)),
    binary main_v11 main_v18 main_v19 (mulf),
    nullary main_cst (constant S_ .f32 0x00000000#32),
    binary main_v19 main_cst main_v20 ((fun x v => Host.reduceAdd x v reducesTo_S800000x64_S800000_d1 h_S_)),
    nullary main_cst_3 (constant S_ .f32 0x00000000#32),
    binary main_arg3 main_cst_3 main_v21 ((fun x v => Host.reduceAdd x v reducesTo_S128x1_S_d0_1 h_S_)),
    unary main_v21 main_v22 (broadcastInDim S800000 ![] bcast_S_S800000),
    binary main_v20 main_v22 main_v23 (mulf) ]

abbrev opsC : List (HloOp τ sig (Elt F)) :=
  [ nullary main_cst_4 (constant S_ .f32 0x3E4CCCCD#32),
    TRef.nullary main_call0.cst (constant S_ .f32 0x00000000#32),
    TRef.unary main_call0.cst main_call0.v0 (broadcastInDim S800000 ![] bcast_S_S800000),
    TRef.binary (.of main_v23 : TRef sig ⟨S800000, .f32⟩) main_call0.v0 main_call0.v1 (cmpf .oge),
    TRef.unary (.of main_cst_4 : TRef sig ⟨S_, .f32⟩) main_call0.v2 id,
    TRef.unary main_call0.v2 main_call0.v3 (broadcastInDim S800000 ![] bcast_S_S800000),
    TRef.binary main_call0.v3 (.of main_v23 : TRef sig ⟨S800000, .f32⟩) main_call0.v4 mulf,
    TRef.ternary main_call0.v1 (.of main_v23 : TRef sig ⟨S800000, .f32⟩) main_call0.v4 main_call0.call0.v0 select ]

abbrev opsD : List (HloOp τ sig (Elt F)) :=
  [ nullary main_cst_5 (constant S_ .f32 0xFF800000#32),
    binary main_v24 main_cst_5 main_v25 ((fun x v => Host.reduce FloatOps.maximumf x v reducesTo_S800000_S_d0 h_S_)),
    nullary main_cst_6 (constant S_ .f32 0xFF800000#32),
    binary main_cst_6 main_v25 main_v26 (maximumf),
    unary main_v26 main_v27 (broadcastInDim S1 ![] bcast_S_S1),
    unary main_v27 main_v28 (broadcastInDim S800000 ![0] bcast_S1_S800000_0),
    binary main_v24 main_v28 main_v29 (subf),
    unary main_v29 main_v30 (Host.exp),
    nullary main_cst_7 (constant S_ .f32 0x00000000#32),
    binary main_v30 main_cst_7 main_v31 ((fun x v => Host.reduceAdd x v reducesTo_S800000_S_d0 h_S_)),
    unary main_v31 main_v32 (broadcastInDim S1 ![] bcast_S_S1),
    unary main_v32 main_v33 (broadcastInDim S800000 ![0] bcast_S1_S800000_0),
    binary main_v30 main_v33 main_v34 (Host.divf) ]

abbrev opsE : List (HloOp τ sig (Elt F)) :=
  [ nullary main_cst_8 (constant S_ .f32 0x00000000#32),
    unary main_cst_8 main_v35 (broadcastInDim S50000x64 ![] bcast_S_S50000x64),
    unary main_v34 main_v36 (broadcastInDim S800000x1 ![0] bcast_S800000_S800000x1_0),
    nullary main_c_9 (constantI S_ 32 0#32),
    unary main_c_9 main_v37 (broadcastInDim S800000 ![] bcast_S_S800000),
    binary main_v2 main_v37 main_v38 (cmpi .slt),
    nullary main_c_10 (constantI S_ 32 50000#32),
    unary main_c_10 main_v39 (broadcastInDim S800000 ![] bcast_S_S800000),
    binary main_v2 main_v39 main_v40 (addi),
    ternary main_v38 main_v40 main_v2 main_v41 (select),
    unary main_v41 main_v42 (broadcastInDim S800000x1 ![0] bcast_S800000_S800000x1_0),
    binary main_v0 main_v42 main_v43 ((fun x i => Host.gather gather_S50000x64_S800000x1_S800000x64_1_0_n_n_0_1_164 x i)),
    unary main_v36 main_v44 (broadcastInDim S800000x64 ![0, 1] bcast_S800000x1_S800000x64_0_1),
    binary main_v44 main_v43 main_v45 (mulf),
    nullary main_c_11 (constantI S_ 32 0#32),
    unary main_c_11 main_v46 (broadcastInDim S800000 ![] bcast_S_S800000),
    binary main_v4 main_v46 main_v47 (cmpi .slt),
    nullary main_c_12 (constantI S_ 32 50000#32),
    unary main_c_12 main_v48 (broadcastInDim S800000 ![] bcast_S_S800000),
    binary main_v4 main_v48 main_v49 (addi),
    ternary main_v47 main_v49 main_v4 main_v50 (select),
    unary main_v50 main_v51 (broadcastInDim S800000x1 ![0] bcast_S800000_S800000x1_0),
    ternary main_v35 main_v51 main_v45 main_v52 ((fun x i u => Host.scatterAdd scatter_S50000x64_S800000x1_S800000x64_1_0_0_1 x i u)) ]

abbrev opsF : List (HloOp τ sig (Elt F)) :=
  [ TRef.nullary main_call1.cst (constant S_ .f32 0x00000000#32),
    TRef.unary main_call1.cst main_call1.v0 (broadcastInDim S50000x64 ![] bcast_S_S50000x64),
    TRef.binary (.of main_v52 : TRef sig ⟨S50000x64, .f32⟩) main_call1.v0 main_call1.v1 (cmpf .ogt),
    TRef.nullary main_call1.cst_0 (constant S_ .f32 0x00000000#32),
    TRef.unary main_call1.cst_0 main_call1.v2 (broadcastInDim S50000x64 ![] bcast_S_S50000x64),
    TRef.binary (.of main_v52 : TRef sig ⟨S50000x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x64 ![] bcast_S_S50000x64),
    TRef.ternary main_call1.v3 main_call1.call0.v1 (.of main_v52 : TRef sig ⟨S50000x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x64 ![] bcast_S_S50000x64),
    TRef.binary main_call1.v6 main_call1.v5 main_call1.v7 mulf,
    TRef.ternary main_call1.v1 (.of main_v52 : TRef sig ⟨S50000x64, .f32⟩) main_call1.v7 main_call1.call1.v0 select ]

abbrev ops : List (HloOp τ sig (Elt F)) := opsA ++ (opsB ++ (opsC ++ (opsD ++ (opsE ++ opsF))))

set_option maxHeartbeats 4000000 in
theorem main_eq (c : Dev nD) : main (F := F) c = seq ops := by
  simp only [main, main_part0, main_part1, fn_leaky_relu.body, fn_where.body, fn_elu.body, fn_where_0.body,
    fn_where_1.body, seq, bind_assoc, pure_bind, List.cons_append, List.nil_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem ops_eq : (ops : List (HloOp τ sig (Elt F))) = opsA ++ (opsB ++ (opsC ++ (opsD ++ (opsE ++ opsF)))) := rfl

theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem stepA (W : Valuation τ sig (Elt F)) :
    after opsA W (main_v0 : DevRef τ sig) = wh (W (main_arg0 : DevRef τ sig)) (W (main_arg2 : DevRef τ sig))
    ∧ after opsA W (main_v2 : DevRef τ sig) = srcRow (W (main_arg1 : DevRef τ sig))
    ∧ after opsA W (main_v4 : DevRef τ sig) = dstRow (W (main_arg1 : DevRef τ sig))
    ∧ after opsA W (main_arg0 : DevRef τ sig) = W (main_arg0 : DevRef τ sig)
    ∧ after opsA W (main_arg1 : DevRef τ sig) = W (main_arg1 : DevRef τ sig)
    ∧ after opsA W (main_arg2 : DevRef τ sig) = W (main_arg2 : DevRef τ sig)
    ∧ after opsA W (main_arg3 : DevRef τ sig) = W (main_arg3 : DevRef τ sig) := by
  refine ⟨?_, ?_, ?_, ?_, ?_, ?_, ?_⟩ <;> after_results_simp <;> rfl

set_option maxHeartbeats 1000000 in
theorem stepB (W : Valuation τ sig (Elt F)) :
    after opsB W (main_v23 : DevRef τ sig) = raw (score (W (main_v0 : DevRef τ sig)) (W (main_v2 : DevRef τ sig)) (W (main_v4 : DevRef τ sig))) (asum (W (main_arg3 : DevRef τ sig)))
    ∧ after opsB W (main_v0 : DevRef τ sig) = W (main_v0 : DevRef τ sig)
    ∧ after opsB W (main_v2 : DevRef τ sig) = W (main_v2 : DevRef τ sig)
    ∧ after opsB W (main_v4 : DevRef τ sig) = W (main_v4 : DevRef τ sig)
    ∧ after opsB W (main_arg0 : DevRef τ sig) = W (main_arg0 : DevRef τ sig)
    ∧ after opsB W (main_arg1 : DevRef τ sig) = W (main_arg1 : DevRef τ sig)
    ∧ after opsB W (main_arg2 : DevRef τ sig) = W (main_arg2 : DevRef τ sig)
    ∧ after opsB W (main_arg3 : DevRef τ sig) = W (main_arg3 : DevRef τ sig) := by
  refine ⟨?_, ?_, ?_, ?_, ?_, ?_, ?_, ?_⟩ <;> after_results_simp <;> rfl

theorem stepC (W : Valuation τ sig (Elt F)) :
    after opsC W (main_v24 : DevRef τ sig) = lrelu (W (main_v23 : DevRef τ sig))
    ∧ after opsC W (main_v0 : DevRef τ sig) = W (main_v0 : DevRef τ sig)
    ∧ after opsC W (main_v2 : DevRef τ sig) = W (main_v2 : DevRef τ sig)
    ∧ after opsC W (main_v4 : DevRef τ sig) = W (main_v4 : DevRef τ sig)
    ∧ after opsC W (main_arg0 : DevRef τ sig) = W (main_arg0 : DevRef τ sig)
    ∧ after opsC W (main_arg1 : DevRef τ sig) = W (main_arg1 : DevRef τ sig)
    ∧ after opsC W (main_arg2 : DevRef τ sig) = W (main_arg2 : DevRef τ sig)
    ∧ after opsC W (main_arg3 : DevRef τ sig) = W (main_arg3 : DevRef τ sig) := by
  refine ⟨?_, ?_, ?_, ?_, ?_, ?_, ?_, ?_⟩ <;> after_results_simp <;> rfl

theorem stepD (W : Valuation τ sig (Elt F)) :
    after opsD W (main_v34 : DevRef τ sig) = softmax (W (main_v24 : DevRef τ sig))
    ∧ after opsD W (main_v0 : DevRef τ sig) = W (main_v0 : DevRef τ sig)
    ∧ after opsD W (main_v2 : DevRef τ sig) = W (main_v2 : DevRef τ sig)
    ∧ after opsD W (main_v4 : DevRef τ sig) = W (main_v4 : DevRef τ sig)
    ∧ after opsD W (main_arg0 : DevRef τ sig) = W (main_arg0 : DevRef τ sig)
    ∧ after opsD W (main_arg1 : DevRef τ sig) = W (main_arg1 : DevRef τ sig)
    ∧ after opsD W (main_arg2 : DevRef τ sig) = W (main_arg2 : DevRef τ sig)
    ∧ after opsD W (main_arg3 : DevRef τ sig) = W (main_arg3 : DevRef τ sig) := by
  refine ⟨?_, ?_, ?_, ?_, ?_, ?_, ?_, ?_⟩ <;> after_results_simp <;> rfl

set_option maxHeartbeats 1000000 in
theorem stepE (W : Valuation τ sig (Elt F)) :
    after opsE W (main_v52 : DevRef τ sig) = scat (W (main_v4 : DevRef τ sig)) (upd (W (main_v34 : DevRef τ sig)) (gath (W (main_v0 : DevRef τ sig)) (W (main_v2 : DevRef τ sig))))
    ∧ after opsE W (main_arg0 : DevRef τ sig) = W (main_arg0 : DevRef τ sig)
    ∧ after opsE W (main_arg1 : DevRef τ sig) = W (main_arg1 : DevRef τ sig)
    ∧ after opsE W (main_arg2 : DevRef τ sig) = W (main_arg2 : DevRef τ sig)
    ∧ after opsE W (main_arg3 : DevRef τ sig) = W (main_arg3 : DevRef τ sig) := by
  refine ⟨?_, ?_, ?_, ?_, ?_⟩ <;> after_results_simp <;> rfl

theorem stepF (W : Valuation τ sig (Elt F)) :
    after opsF W (main_v53 : DevRef τ sig) = elu (W (main_v52 : DevRef τ sig))
    ∧ after opsF W (main_arg0 : DevRef τ sig) = W (main_arg0 : DevRef τ sig)
    ∧ after opsF W (main_arg1 : DevRef τ sig) = W (main_arg1 : DevRef τ sig)
    ∧ after opsF W (main_arg2 : DevRef τ sig) = W (main_arg2 : DevRef τ sig)
    ∧ after opsF W (main_arg3 : DevRef τ sig) = W (main_arg3 : DevRef τ sig) := by
  refine ⟨?_, ?_, ?_, ?_, ?_⟩ <;> after_results_simp <;> rfl

theorem after_ops (V : Valuation τ sig (Elt F)) :
    after ops V (main_v53 : DevRef τ sig)
        = result (V (main_arg0 : DevRef τ sig)) (V (main_arg1 : DevRef τ sig)) (V (main_arg2 : DevRef τ sig)) (V (main_arg3 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  rw [ops_eq]
  simp only [after_app]
  obtain ⟨a0, a2, a4, ka0, ka1, ka2, ka3⟩ := stepA V
  generalize after opsA V = V1 at a0 a2 a4 ka0 ka1 ka2 ka3 ⊢
  obtain ⟨b23, kb0, kb2, kb4, kba0, kba1, kba2, kba3⟩ := stepB V1
  generalize after opsB V1 = V2 at b23 kb0 kb2 kb4 kba0 kba1 kba2 kba3 ⊢
  obtain ⟨c24, kc0, kc2, kc4, kca0, kca1, kca2, kca3⟩ := stepC V2
  generalize after opsC V2 = V3 at c24 kc0 kc2 kc4 kca0 kca1 kca2 kca3 ⊢
  obtain ⟨d34, kd0, kd2, kd4, kda0, kda1, kda2, kda3⟩ := stepD V3
  generalize after opsD V3 = V4 at d34 kd0 kd2 kd4 kda0 kda1 kda2 kda3 ⊢
  obtain ⟨e52, kea0, kea1, kea2, kea3⟩ := stepE V4
  generalize after opsE V4 = V5 at e52 kea0 kea1 kea2 kea3 ⊢
  obtain ⟨f53, kfa0, kfa1, kfa2, kfa3⟩ := stepF V5
  generalize after opsF V5 = V6 at f53 kfa0 kfa1 kfa2 kfa3 ⊢
  refine ⟨?_, ?_, ?_, ?_, ?_⟩
  · rw [f53, e52, d34, kd0, kd2, kd4, c24, kc0, kc2, kc4, b23, kb0, kb2, kb4, a0, a2, a4, ka3]
    rfl
  · rw [kfa0, kea0, kda0, kca0, kba0, ka0]
  · rw [kfa1, kea1, kda1, kca1, kba1, ka1]
  · rw [kfa2, kea2, kda2, kca2, kba2, ka2]
  · rw [kfa3, kea3, kda3, kca3, kba3, ka3]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v53)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v53).trans (after_ops (launchContents m c)).1,
       (h c main_arg0).trans (after_ops (launchContents m c)).2.1,
       (h c main_arg1).trans (after_ops (launchContents m c)).2.2.1,
       (h c main_arg2).trans (after_ops (launchContents m c)).2.2.2.1,
       (h c main_arg3).trans (after_ops (launchContents m c)).2.2.2.2⟩)
    (run_seq scopedRefs_eq scopedSems_eq defs main (fun _ => ops) main_eq (fun _ => ops_sub) m ρ)

end Cert.ReferenceIdeal.Hand

end
-- ==== Proof.PreDecode.lean ====
import proofs.«413069_j24043226923662_1_alg».proof.Pre_finite_inputs
import Idealize.ShloMosaic.Lib.ReduceAll
import Idealize.ShloMosaic.Lib.StableHlo.Predicate
import Idealize.ShloMosaic.Lib.ValueIdx

noncomputable section

namespace Cert.Pre_finite_inputs.Hand

open Idealize.ShloMosaic Cert.Pre_finite_inputs

instance : Subsingleton S_.Idx := ⟨fun a b => funext fun d => d.elim0⟩

theorem idx_in_range {F : FTy → Type} [FloatOps F] [Cert.Pre_finite_inputs.Facts] (h : FVec F S50000x128 .f32) (ei : IVec S2x800000 32)
    (W : FVec F S128x64 .f32) (a : FVec F S128x1 .f32)
    (hpre : Cert.Pre_finite_inputs.fn (F := F) h ei W a = fun _ => 1#1) (j : S2x800000.Idx) :
    0 ≤ (ei j).toInt ∧ (ei j).toInt < 50000 := by
  have e := congrFun hpre ValueIdx.ix0
  dsimp only [fn, fn_part1] at e
  obtain ⟨e17, e20⟩ := IntOp.andi_eq_one.1 e
  obtain ⟨-, e16⟩ := IntOp.andi_eq_one.1 e17
  have hge := Host.reduce_andi_all _ _ _ _ _ e16 j
  have hlt := Host.reduce_andi_all _ _ _ _ _ e20 j
  have b0 := StableHlo.Predicate.bcast_scalar (t := S2x800000) Facts.bcast_S_S2x800000 Facts.h_S_ (constantI S_ 32 0#32) j
  have b1 := StableHlo.Predicate.bcast_scalar (t := S2x800000) Facts.bcast_S_S2x800000 Facts.h_S_ (constantI S_ 32 50000#32) j
  have hge' : IntOp.cmpi .sge (ei j) (0#32) = 1#1 := by
    have := hge
    change IntOp.cmpi .sge (ei j) (broadcastInDim S2x800000 ![] _ (constantI S_ 32 0#32) j) = 1#1 at this
    rw [b0] at this; exact this
  have hlt' : IntOp.cmpi .slt (ei j) (50000#32) = 1#1 := by
    have := hlt
    change IntOp.cmpi .slt (ei j) (broadcastInDim S2x800000 ![] _ (constantI S_ 32 50000#32) j) = 1#1 at this
    rw [b1] at this; exact this
  have z0 : (0#32 : BitVec 32).toInt = 0 := by decide
  have z1 : (50000#32 : BitVec 32).toInt = 50000 := by decide
  have g := IntOp.cmpi_sge.1 hge'
  have l := IntOp.cmpi_slt.1 hlt'
  rw [z0] at g; rw [z1] at l
  exact ⟨g, l⟩

theorem idx_toNat {F : FTy → Type} [FloatOps F] [Cert.Pre_finite_inputs.Facts] (h : FVec F S50000x128 .f32) (ei : IVec S2x800000 32)
    (W : FVec F S128x64 .f32) (a : FVec F S128x1 .f32)
    (hpre : Cert.Pre_finite_inputs.fn (F := F) h ei W a = fun _ => 1#1) (j : S2x800000.Idx) :
    (ei j).toNat < 50000 ∧ ((ei j).toNat : ℤ) = (ei j).toInt := by
  obtain ⟨h0, h1⟩ := idx_in_range h ei W a hpre j
  have h32 := (ei j).isLt
  have key : ((ei j).toNat : ℤ) = (ei j).toInt := by
    rw [BitVec.toInt_eq_toNat_cond]
    split
    · rfl
    · rename_i hc
      exfalso
      rw [BitVec.toInt_eq_toNat_cond, if_neg hc] at h0
      omega
  exact ⟨by omega, key⟩

end Cert.Pre_finite_inputs.Hand

end
-- ==== Proof.Val0.lean ====
import proofs.«413069_j24043226923662_1_alg».proof.Proof.KI.R0
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev prodHW (a0 : S50000x128.Idx → EReal) (a1 : S128x64.Idx → EReal) : S50000x64.Idx → EReal :=
  fun i => ∑ k : Fin 128, a0 (ix2 (i 0) k) * a1 (ix2 k (i 1))

abbrev harr (c : Dev nD) : S50000x128.Idx → EReal := V c main_arg0
abbrev warr (c : Dev nD) : S128x64.Idx → EReal := V c main_arg2

theorem lhs_projDot_0 (j : S2000x64.Idx) (k : dot_S2000x128_S128x64_S2000x64_1_0_0_1_n_n.contr.Idx) :
    ((dot_S2000x128_S128x64_S2000x64_1_0_0_1_n_n.lhsIdx j k) 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

theorem lhs_projDot_1 (j : S2000x64.Idx) (k : dot_S2000x128_S128x64_S2000x64_1_0_0_1_n_n.contr.Idx) :
    ((dot_S2000x128_S128x64_S2000x64_1_0_0_1_n_n.lhsIdx j k) 1).val = (k ⟨0, by decide⟩).val :=
  dot_S2000x128_S128x64_S2000x64_1_0_0_1_n_n.lhsIdx_val_of_single (cl := 1) rfl j k

theorem rhs_projDot_0 (j : S2000x64.Idx) (k : dot_S2000x128_S128x64_S2000x64_1_0_0_1_n_n.contr.Idx) :
    ((dot_S2000x128_S128x64_S2000x64_1_0_0_1_n_n.rhsIdx j k) 0).val = (k ⟨0, by decide⟩).val :=
  dot_S2000x128_S128x64_S2000x64_1_0_0_1_n_n.rhsIdx_val_of_single (cr := 0) rfl j k

theorem rhs_projDot_1 (j : S2000x64.Idx) (k : dot_S2000x128_S128x64_S2000x64_1_0_0_1_n_n.contr.Idx) :
    ((dot_S2000x128_S128x64_S2000x64_1_0_0_1_n_n.rhsIdx j k) 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

theorem projDot_apply {φ₁ φ₂ : FTy} (A : FVec Ideal S2000x128 φ₁) (B : FVec Ideal S128x64 φ₂) (p : Fin 2000) (q : Fin 64) :
    FloatOps.matmul dot_S2000x128_S128x64_S2000x64_1_0_0_1_n_n none A B (constant S2000x64 .f32 0x00000000#32) (ix2 p q)
      = ∑ k : Fin 128, A (ix2 p k) * B (ix2 k q) := by
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have l : dot_S2000x128_S128x64_S2000x64_1_0_0_1_n_n.lhsIdx (ix2 p q) ((contrEquiv1 dot_S2000x128_S128x64_S2000x64_1_0_0_1_n_n 128 rfl rfl).symm k) = ix2 p k := by
    funext ax; apply Fin.ext
    match ax with
    | ⟨0, _⟩ => exact lhs_projDot_0 _ _
    | ⟨1, _⟩ => exact (lhs_projDot_1 _ _).trans hk
  have r : dot_S2000x128_S128x64_S2000x64_1_0_0_1_n_n.rhsIdx (ix2 p q) ((contrEquiv1 dot_S2000x128_S128x64_S2000x64_1_0_0_1_n_n 128 rfl rfl).symm k) = ix2 k q := by
    funext ax; apply Fin.ext
    match ax with
    | ⟨0, _⟩ => exact (rhs_projDot_0 _ _).trans hk
    | ⟨1, _⟩ => exact rhs_projDot_1 _ _
  rw [l, r]

theorem pay_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  refine (projDot_apply (truncf .bf16 x0 bitsLt_bf16_f32) (truncf .bf16 x1 bitsLt_bf16_f32) p q).trans ?_
  rfl

theorem zero_offsets : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal) (prodHW (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x64) zero_offsets]
  obtain ⟨e00, e01, e10, e11, e20, e21⟩ := idx_facts0 t
  funext j
  obtain ⟨p, q, rfl⟩ : ∃ (p : Fin 2000) (q : Fin 64), j = ix2 p q := ⟨j 0, j 1, eq_ix2 j⟩
  show k0_pay1 (F := Ideal) (iblk0 V c 0 t) (iblk0 V c 1 t) (ix2 p q)
    = prodHW (V c main_arg0) (V c main_arg2) (((cfg0.win 2).blk t).view.emb (ix2 p q))
  refine (pay_apply (iblk0 V c 0 t) (iblk0 V c 1 t) p q).trans ?_
  refine Finset.sum_congr rfl fun k _ => ?_
  show harr V c (((cfg0.win 0).blk t).view.emb (ix2 p k)) * warr V c (((cfg0.win 1).blk t).view.emb (ix2 k q))
    = harr V c (ix2 ((((cfg0.win 2).blk t).view.emb (ix2 p q)) 0) k) * warr V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (· * ·) (congrArg (harr V c) h0) (congrArg (warr V c) h1)

theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v8).slice (win0_2.rect t)).set ↔ _
  rw [View.set_slice_whole, Rect.mem_set_unit]
  exact Iff.rfl

theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have ht : (i 0).val / 2000 < cfg0.N := by show (i 0).val / 2000 < 25; omega
  obtain ⟨-, -, -, -, e20, e21⟩ := idx_facts0 ⟨(i 0).val / 2000, ht⟩
  have q0 : win0_2.index ⟨(i 0).val / 2000, ht⟩ (0 : Fin 2) = (i 0).val / 2000 := e20
  refine ⟨⟨(i 0).val / 2000, ht⟩, flush0_2 _, ?_⟩
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 64 ≤ (i 1).val ∧ (i 1).val < win0_2.index ⟨(i 0).val / 2000, ht⟩ (1 : Fin 2) * 64 + 64; omega

theorem arr0 (c : Dev nD) : (dat0 (F := Ideal) V c).arrAt 2 cfg0.N = prodHW (V c main_arg0) (V c main_arg2) :=
  (dat0 (F := Ideal) V c).arrAt_eq_of_cover 2 (prodHW (V c main_arg0) (V c main_arg2)) (fun t _ => flushed0_eq V c t) cover0

theorem arr0_eq (c : Dev nD) (i : S50000x64.Idx) :
    (dat0 (F := Ideal) V c).arrAt 2 cfg0.N i
      = (∑ k : Fin 128, harr V c (ValueIdx.ix2 (i 0) k) * warr V c (ValueIdx.ix2 k (i 1)) : EReal) :=
  congrFun (arr0 V c) i

end Cert.KernelIdeal.Val
-- ==== Proof.ValPay.lean ====
import proofs.«413069_j24043226923662_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Cert.KernelIdeal Cert.KernelIdeal.Gen Idealize.ShloMosaic.ValueIdx

section OneHot
variable {ι : Type*} [Fintype ι] [DecidableEq ι]

theorem sum_onehot_mul (f : ι → EReal) (j₀ : ι) :
    (∑ j : ι, (if j = j₀ then (1 : EReal) else 0) * f j) = f j₀ := by
  rw [Finset.sum_eq_single j₀]
  · rw [if_pos rfl, one_mul]
  · intro b _ hb
    rw [if_neg hb, zero_mul]
  · intro h
    exact absurd (Finset.mem_univ _) h

theorem sum_onehot_mul_of_unique (p : ι → Prop) [DecidablePred p] (f : ι → EReal) (j₀ : ι) (hp : ∀ j, p j ↔ j = j₀) :
    (∑ j : ι, (if p j then (1 : EReal) else 0) * f j) = f j₀ := by
  rw [← sum_onehot_mul f j₀]
  refine Finset.sum_congr rfl fun j _ => ?_
  by_cases h : j = j₀
  · rw [if_pos ((hp j).mpr h), if_pos h]
  · rw [if_neg (fun hj => h ((hp j).mp hj)), if_neg h]

theorem sum_onehot_mul_of_none (p : ι → Prop) [DecidablePred p] (f : ι → EReal) (hp : ∀ j, ¬p j) :
    (∑ j : ι, (if p j then (1 : EReal) else 0) * f j) = 0 :=
  Finset.sum_eq_zero fun j _ => by rw [if_neg (hp j), zero_mul]

theorem sum_onehot_mul_fiber {κ : Type*} [DecidableEq κ] (g : ι → κ) (j : κ) (u : ι → EReal) :
    (∑ r : ι, (if g r = j then (1 : EReal) else 0) * u r) = ∑ r ∈ Finset.univ.filter (fun r => g r = j), u r := by
  rw [Finset.sum_filter]
  refine Finset.sum_congr rfl fun r _ => ?_
  by_cases h : g r = j
  · rw [if_pos h, if_pos h, one_mul]
  · rw [if_neg h, if_neg h, zero_mul]

end OneHot

theorem lhs_gather_0 (i : S2000x64.Idx) (q : dot_S2000x1000_S1000x64_S2000x64_1_0_0_1_n_n.contr.Idx) :
    (dot_S2000x1000_S1000x64_S2000x64_1_0_0_1_n_n.lhsIdx i q 0).val = (i 0).val := by
  unfold DotDims.lhsIdx
  rw [dif_neg (show ¬(0 : Fin S2000x1000.rank) ∈ dot_S2000x1000_S1000x64_S2000x64_1_0_0_1_n_n.lhsBatch by decide),
    dif_pos (show (0 : Fin S2000x1000.rank) ∈ dot_S2000x1000_S1000x64_S2000x64_1_0_0_1_n_n.lhsNonContracting by decide)]
  rfl
theorem lhs_gather_1 (i : S2000x64.Idx) (q : dot_S2000x1000_S1000x64_S2000x64_1_0_0_1_n_n.contr.Idx) :
    (dot_S2000x1000_S1000x64_S2000x64_1_0_0_1_n_n.lhsIdx i q 1).val = (q ⟨0, by decide⟩).val :=
  dot_S2000x1000_S1000x64_S2000x64_1_0_0_1_n_n.lhsIdx_val_of_single rfl i q
theorem rhs_gather_0 (i : S2000x64.Idx) (q : dot_S2000x1000_S1000x64_S2000x64_1_0_0_1_n_n.contr.Idx) :
    (dot_S2000x1000_S1000x64_S2000x64_1_0_0_1_n_n.rhsIdx i q 0).val = (q ⟨0, by decide⟩).val :=
  dot_S2000x1000_S1000x64_S2000x64_1_0_0_1_n_n.rhsIdx_val_of_single rfl i q
theorem rhs_gather_1 (i : S2000x64.Idx) (q : dot_S2000x1000_S1000x64_S2000x64_1_0_0_1_n_n.contr.Idx) :
    (dot_S2000x1000_S1000x64_S2000x64_1_0_0_1_n_n.rhsIdx i q 1).val = (i 1).val := by
  unfold DotDims.rhsIdx
  rw [dif_neg (show ¬(1 : Fin S1000x64.rank) ∈ dot_S2000x1000_S1000x64_S2000x64_1_0_0_1_n_n.rhsBatch by decide),
    dif_pos (show (1 : Fin S1000x64.rank) ∈ dot_S2000x1000_S1000x64_S2000x64_1_0_0_1_n_n.rhsNonContracting by decide)]
  rfl

theorem matmul_gather_apply (L : FVec Ideal S2000x1000 .bf16) (R : FVec Ideal S1000x64 .bf16) (r : Fin 2000) (k : Fin 64) :
    matmul dot_S2000x1000_S1000x64_S2000x64_1_0_0_1_n_n none L R (constant (F := Ideal) S2000x64 .f32 0x00000000#32) (ix2 r k)
      = ∑ j : Fin 1000, L (ix2 r j) * R (ix2 j k) := by
  simp only [matmul]
  rw [Ideal.matmul_constant_zero_apply,
    ← Equiv.sum_comp (contrEquiv1 dot_S2000x1000_S1000x64_S2000x64_1_0_0_1_n_n 1000 rfl rfl).symm]
  refine Finset.sum_congr rfl fun j _ => ?_
  have hk := contrEquiv1_symm_val dot_S2000x1000_S1000x64_S2000x64_1_0_0_1_n_n 1000 rfl rfl j
  have el : dot_S2000x1000_S1000x64_S2000x64_1_0_0_1_n_n.lhsIdx (ix2 r k)
      ((contrEquiv1 dot_S2000x1000_S1000x64_S2000x64_1_0_0_1_n_n 1000 rfl rfl).symm j) = ix2 r j :=
    funext fun a => Fin.ext (by
      match a with
      | ⟨0, _⟩ => exact lhs_gather_0 _ _
      | ⟨1, _⟩ => exact (lhs_gather_1 _ _).trans hk)
  have er : dot_S2000x1000_S1000x64_S2000x64_1_0_0_1_n_n.rhsIdx (ix2 r k)
      ((contrEquiv1 dot_S2000x1000_S1000x64_S2000x64_1_0_0_1_n_n 1000 rfl rfl).symm j) = ix2 j k :=
    funext fun a => Fin.ext (by
      match a with
      | ⟨0, _⟩ => exact (rhs_gather_0 _ _).trans hk
      | ⟨1, _⟩ => exact rhs_gather_1 _ _)
  rw [el, er]

theorem lhs_scatter_0 (i : S1000x64.Idx) (q : dot_S2000x1000_S2000x64_S1000x64_0_0_1_1_n_n.contr.Idx) :
    (dot_S2000x1000_S2000x64_S1000x64_0_0_1_1_n_n.lhsIdx i q 0).val = (q ⟨0, by decide⟩).val :=
  dot_S2000x1000_S2000x64_S1000x64_0_0_1_1_n_n.lhsIdx_val_of_single rfl i q
theorem lhs_scatter_1 (i : S1000x64.Idx) (q : dot_S2000x1000_S2000x64_S1000x64_0_0_1_1_n_n.contr.Idx) :
    (dot_S2000x1000_S2000x64_S1000x64_0_0_1_1_n_n.lhsIdx i q 1).val = (i 0).val := by
  unfold DotDims.lhsIdx
  rw [dif_neg (show ¬(1 : Fin S2000x1000.rank) ∈ dot_S2000x1000_S2000x64_S1000x64_0_0_1_1_n_n.lhsBatch by decide),
    dif_pos (show (1 : Fin S2000x1000.rank) ∈ dot_S2000x1000_S2000x64_S1000x64_0_0_1_1_n_n.lhsNonContracting by decide)]
  rfl
theorem rhs_scatter_0 (i : S1000x64.Idx) (q : dot_S2000x1000_S2000x64_S1000x64_0_0_1_1_n_n.contr.Idx) :
    (dot_S2000x1000_S2000x64_S1000x64_0_0_1_1_n_n.rhsIdx i q 0).val = (q ⟨0, by decide⟩).val :=
  dot_S2000x1000_S2000x64_S1000x64_0_0_1_1_n_n.rhsIdx_val_of_single rfl i q
theorem rhs_scatter_1 (i : S1000x64.Idx) (q : dot_S2000x1000_S2000x64_S1000x64_0_0_1_1_n_n.contr.Idx) :
    (dot_S2000x1000_S2000x64_S1000x64_0_0_1_1_n_n.rhsIdx i q 1).val = (i 1).val := by
  unfold DotDims.rhsIdx
  rw [dif_neg (show ¬(1 : Fin S2000x64.rank) ∈ dot_S2000x1000_S2000x64_S1000x64_0_0_1_1_n_n.rhsBatch by decide),
    dif_pos (show (1 : Fin S2000x64.rank) ∈ dot_S2000x1000_S2000x64_S1000x64_0_0_1_1_n_n.rhsNonContracting by decide)]
  rfl

theorem matmul_scatter_apply (L : FVec Ideal S2000x1000 .bf16) (R : FVec Ideal S2000x64 .bf16) (r : Fin 1000) (k : Fin 64) :
    matmul dot_S2000x1000_S2000x64_S1000x64_0_0_1_1_n_n none L R (constant (F := Ideal) S1000x64 .f32 0x00000000#32) (ix2 r k)
      = ∑ e : Fin 2000, L (ix2 e r) * R (ix2 e k) := by
  simp only [matmul]
  rw [Ideal.matmul_constant_zero_apply,
    ← Equiv.sum_comp (contrEquiv1 dot_S2000x1000_S2000x64_S1000x64_0_0_1_1_n_n 2000 rfl rfl).symm]
  refine Finset.sum_congr rfl fun e _ => ?_
  have hk := contrEquiv1_symm_val dot_S2000x1000_S2000x64_S1000x64_0_0_1_1_n_n 2000 rfl rfl e
  have el : dot_S2000x1000_S2000x64_S1000x64_0_0_1_1_n_n.lhsIdx (ix2 r k)
      ((contrEquiv1 dot_S2000x1000_S2000x64_S1000x64_0_0_1_1_n_n 2000 rfl rfl).symm e) = ix2 e r :=
    funext fun a => Fin.ext (by
      match a with
      | ⟨0, _⟩ => exact (lhs_scatter_0 _ _).trans hk
      | ⟨1, _⟩ => exact lhs_scatter_1 _ _)
  have er : dot_S2000x1000_S2000x64_S1000x64_0_0_1_1_n_n.rhsIdx (ix2 r k)
      ((contrEquiv1 dot_S2000x1000_S2000x64_S1000x64_0_0_1_1_n_n 2000 rfl rfl).symm e) = ix2 e k :=
    funext fun a => Fin.ext (by
      match a with
      | ⟨0, _⟩ => exact (rhs_scatter_0 _ _).trans hk
      | ⟨1, _⟩ => exact rhs_scatter_1 _ _)
  rw [el, er]

section Columns
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

theorem nodeword_apply (n : ℕ) (r : Fin 2000) (j : Fin 1000) :
    addi (iota .tc S2000x1000 32 [1] iota_S2000x1000_d1_w32)
        (broadcast S2000x1000 (Scalar.muli (BitVec.ofNat 32 n) 1000#32)) (ix2 r j)
      = BitVec.ofNat 32 (n * 1000 + j.val) := by
  show IntOp.addi (iota .tc S2000x1000 32 [1] iota_S2000x1000_d1_w32 (ix2 r j))
      (Scalar.muli (BitVec.ofNat 32 n) 1000#32) = _
  rw [iota_single_apply]
  show BitVec.ofNat 32 j.val + BitVec.ofNat 32 n * BitVec.ofNat 32 1000 = _
  rw [← BitVec.ofNat_mul, ← BitVec.ofNat_add, Nat.add_comm]

theorem sitofp_extui_eq (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · rw [if_pos h, beq_iff_eq.mpr h]
    show ((((1#1 : BitVec 1).setWidth 32).toInt : ℝ) : EReal) = 1
    rw [show ((1#1 : BitVec 1).setWidth 32).toInt = 1 by decide]
    norm_num
  · rw [if_neg h, beq_eq_false_iff_ne.mpr h]
    show ((((0#1 : BitVec 1).setWidth 32).toInt : ℝ) : EReal) = 0
    rw [show ((0#1 : BitVec 1).setWidth 32).toInt = 0 by decide]
    norm_num

theorem onehot_entry_of (x : Vec Ideal S2000x1 .i32) (nodes : IVec S2000x1000 32) (r : Fin 2000) (j : Fin 1000)
    (w : BitVec 32) (hw : nodes (ix2 r j) = w) :
    (sitofp (F := Ideal) .f32 (extui 32 (cmpi .eq (broadcastTo S2000x1000 (shapeCast S2000x1 x shapeCasts_S2000x1_S2000x1)
        broadcasts_S2000x1_S2000x1000) nodes) natLt_1_32)) (ix2 r j) = if x (ix2 r 0) = w then 1 else 0 := by
  have hb : broadcastTo S2000x1000 (shapeCast S2000x1 x shapeCasts_S2000x1_S2000x1) broadcasts_S2000x1_S2000x1000 (ix2 r j)
      = x (ix2 r 0) := by
    rw [shapeCast_self]
    exact broadcastTo_a1_ab_apply x _ r j
  show FloatOps.sitofp (F := Ideal) .f32 ((IntOp.cmpi .eq
      (broadcastTo S2000x1000 (shapeCast S2000x1 x shapeCasts_S2000x1_S2000x1) broadcasts_S2000x1_S2000x1000 (ix2 r j))
      (nodes (ix2 r j))).setWidth 32) = _
  rw [hb, hw, sitofp_extui_eq]

theorem k1_pay6_apply (i : grid1.Coords) (r : Fin 2000) (j : Fin 1000) :
    k1_pay6 i (ix2 r j) = BitVec.ofNat 32 ((i 1).val * 1000 + j.val) := by
  unfold k1_pay6
  exact nodeword_apply (i 1).val r j

def onehot (x : Vec Ideal S2000x1 .i32) (i : grid1.Coords) (r : Fin 2000) (j : Fin 1000) : EReal :=
  if x (ix2 r 0) = BitVec.ofNat 32 ((i 1).val * 1000 + j.val) then 1 else 0

theorem onehot_def (x : Vec Ideal S2000x1 .i32) (i : grid1.Coords) (r : Fin 2000) (j : Fin 1000) :
    onehot x i r j = if x (ix2 r 0) = BitVec.ofNat 32 ((i 1).val * 1000 + j.val) then 1 else 0 := rfl

theorem onehot_entry (x : Vec Ideal S2000x1 .i32) (i : grid1.Coords) (r : Fin 2000) (j : Fin 1000) :
    (sitofp (F := Ideal) .f32 (extui 32 (cmpi .eq (broadcastTo S2000x1000 (shapeCast S2000x1 x shapeCasts_S2000x1_S2000x1)
        broadcasts_S2000x1_S2000x1000) (k1_pay6 i)) natLt_1_32)) (ix2 r j) = onehot x i r j :=
  onehot_entry_of x (k1_pay6 i) r j _ (k1_pay6_apply i r j)

theorem k1_pay8_apply (i : grid1.Coords) (x : Vec Ideal S2000x1 .i32) (wh : Vec Ideal S1000x64 .bf16)
    (acc : Vec Ideal S2000x64 .f32) (r : Fin 2000) (k : Fin 64) :
    k1_pay8 (F := Ideal) i x wh acc (ix2 r k) = acc (ix2 r k) + ∑ j : Fin 1000, onehot x i r j * wh (ix2 j k) := by
  unfold k1_pay8 k1_pay7
  refine (congrFun (shapeCast_self _ _) (ix2 r k)).trans ?_
  refine congrArg (acc (ix2 r k) + ·) ?_
  refine (matmul_gather_apply _ _ r k).trans ?_
  refine Finset.sum_congr rfl fun j _ => ?_
  refine congrArg₂ (· * ·) (onehot_entry x i r j) ?_
  exact congrFun (shapeCast_self _ _) (ix2 j k)

theorem k1_pay9_apply (i : grid1.Coords) (x : Vec Ideal S2000x1 .i32) (wh : Vec Ideal S1000x64 .bf16)
    (acc : Vec Ideal S2000x64 .f32) (r : Fin 2000) (k : Fin 64) :
    k1_pay9 (F := Ideal) i x wh acc (ix2 r k) = acc (ix2 r k) + ∑ j : Fin 1000, onehot x i r j * wh (ix2 j k) := by
  unfold k1_pay9 k1_pay7
  refine (congrFun (shapeCast_self _ _) (ix2 r k)).trans ?_
  refine congrArg (acc (ix2 r k) + ·) ?_
  refine (matmul_gather_apply _ _ r k).trans ?_
  refine Finset.sum_congr rfl fun j _ => ?_
  refine congrArg₂ (· * ·) (onehot_entry x i r j) ?_
  exact congrFun (shapeCast_self _ _) (ix2 j k)

theorem k1_pay4_eq : k1_pay4 (F := Ideal) = fun _ => 0 := by
  unfold k1_pay4
  refine (shapeCast_self _ _).trans ?_
  funext _
  exact Ideal.ofBits_zero_f32
theorem k1_pay5_eq : k1_pay5 (F := Ideal) = fun _ => 0 := by
  unfold k1_pay5
  refine (shapeCast_self _ _).trans ?_
  funext _
  exact Ideal.ofBits_zero_f32

theorem k1_pay1_eq (v : Vec Ideal S2000x64 .f32) : k1_pay1 (F := Ideal) v = v := rfl
theorem k1_pay2_eq (v : Vec Ideal S2000x64 .f32) : k1_pay2 (F := Ideal) v = v := rfl

theorem rowsum_apply (src : FVec Ideal S2000x64 .f32) (hφ : FKind.Formats .f32)
    (hacc : (0x00000000#32 : BitVec 32) = FKind.add.neutral .f32 hφ) (r : Fin 2000) :
    multiReduction (F := Ideal) .add [1] S2000 src 0x00000000#32 reduces_S2000x64_S2000 hφ hacc (ix1 r)
      = ∑ k : Fin 64, src (ix2 r k) := by
  refine (Ideal.multiReduction_add_single src 0x00000000#32 reduces_S2000x64_S2000 hφ hacc (ix1 r)).trans ?_
  refine Finset.sum_congr rfl fun k _ => ?_
  exact congrArg src (funext fun a => Fin.ext (by match a with | ⟨0, _⟩ => rfl | ⟨1, _⟩ => rfl))

theorem leaky_select (raw : EReal) :
    Scalar.select (FloatOps.cmpf (F := Ideal) (φ := .f32) .ogt raw (FloatOps.ofBits .f32 0x00000000#32)) raw
        (FloatOps.mulf (F := Ideal) (φ := .f32) (FloatOps.ofBits .f32 0x3E4CCCCD#32) raw)
      = if 0 < raw then raw else Ideal.ofBits .f32 0x3E4CCCCD#32 * raw := by
  show (if BitVec.ofBool (decide (Ideal.ofBits .f32 0x00000000#32 < raw)) = 1#1 then raw
      else Ideal.ofBits .f32 0x3E4CCCCD#32 * raw) = _
  rw [Ideal.ofBits_zero_f32]
  by_cases h : 0 < raw
  · rw [if_pos h, decide_eq_true h]; rfl
  · rw [if_neg h, decide_eq_false h]; rfl

theorem k1_pay3_apply (a b : Vec Ideal S2000x64 .f32) (s : Vec Ideal S1x1 .f32) (r : Fin 2000) :
    k1_pay3 (F := Ideal) a b s (ix2 r 0) =
      (let raw := (∑ k : Fin 64, a (ix2 r k) * b (ix2 r k)) * s (ix2 0 0)
       if 0 < raw then raw else Ideal.ofBits .f32 0x3E4CCCCD#32 * raw) := by
  have hraw : mulf (shapeCast S2000x1 (multiReduction (F := Ideal) .add [1] S2000 (mulf a b) 0x00000000#32
        reduces_S2000x64_S2000 (.inl rfl) rfl) shapeCasts_S2000_S2000x1)
      (broadcast S2000x1 (extractAt ![0, 0] s inpos_S1x1_p0_0)) (ix2 r 0)
      = (∑ k : Fin 64, a (ix2 r k) * b (ix2 r k)) * s (ix2 0 0) := by
    refine congrArg₂ (· * ·) ?_ ?_
    · refine (shapeCast_a_a1_apply _ _ r 0).trans ?_
      exact rowsum_apply (mulf a b) _ _ r
    · exact congrArg s (funext fun c => Fin.ext (by match c with | ⟨0, _⟩ => rfl | ⟨1, _⟩ => rfl))
  unfold k1_pay3
  refine (leaky_select _).trans ?_
  rw [hraw]

def onehot2 (d : Vec Ideal S2000x1 .i32) (i : grid2.Coords) (e : Fin 2000) (r : Fin 1000) : EReal :=
  if d (ix2 e 0) = BitVec.ofNat 32 ((i 0).val * 1000 + r.val) then 1 else 0

theorem onehot2_def (d : Vec Ideal S2000x1 .i32) (i : grid2.Coords) (e : Fin 2000) (r : Fin 1000) :
    onehot2 d i e r = if d (ix2 e 0) = BitVec.ofNat 32 ((i 0).val * 1000 + r.val) then 1 else 0 := rfl

theorem k2_pay1_eq : k2_pay1 (F := Ideal) = fun _ => 0 := by
  unfold k2_pay1
  refine (shapeCast_self _ _).trans ?_
  funext _
  exact Ideal.ofBits_zero_f32

theorem k2_pay2_apply (i : grid2.Coords) (d : Vec Ideal S2000x1 .i32) (att : Vec Ideal S2000x1 .f32)
    (ws : Vec Ideal S2000x64 .bf16) (acc : Vec Ideal S1000x64 .f32) (r : Fin 1000) (k : Fin 64) :
    k2_pay2 (F := Ideal) i d att ws acc (ix2 r k)
      = acc (ix2 r k) + ∑ e : Fin 2000, onehot2 d i e r * (att (ix2 e 0) * ws (ix2 e k)) := by
  unfold k2_pay2
  refine (congrFun (shapeCast_self _ _) (ix2 r k)).trans ?_
  refine congrArg (acc (ix2 r k) + ·) ?_
  refine (matmul_scatter_apply _ _ r k).trans ?_
  refine Finset.sum_congr rfl fun e _ => ?_
  refine congrArg₂ (· * ·) (onehot_entry_of d _ e r _ (nodeword_apply (i 0).val e r)) ?_
  refine congrArg₂ (fun p q : EReal => p * q) ?_ ?_
  · exact (broadcastTo_a1_ab_apply _ _ e k).trans (congrFun (shapeCast_self att _) (ix2 e 0))
  · exact congrFun (shapeCast_self ws _) (ix2 e k)

theorem ofBits_one_f32 : Ideal.ofBits .f32 0x3F800000#32 = 1 := IdealRules.sign_bit.ideal_onePat .f32

theorem elu_select (v : EReal) :
    Scalar.select (FloatOps.cmpf (F := Ideal) (φ := .f32) .ogt v (FloatOps.ofBits .f32 0x00000000#32)) v
        (FloatOps.subf (F := Ideal) (φ := .f32) (FloatOps.exp v) (FloatOps.ofBits .f32 0x3F800000#32))
      = if 0 < v then v else Ideal.exp v - 1 := by
  show (if BitVec.ofBool (decide (Ideal.ofBits .f32 0x00000000#32 < v)) = 1#1 then v
      else Ideal.exp v - Ideal.ofBits .f32 0x3F800000#32) = _
  rw [Ideal.ofBits_zero_f32, ofBits_one_f32]
  by_cases h : 0 < v
  · rw [if_pos h, decide_eq_true h]; rfl
  · rw [if_neg h, decide_eq_false h]; rfl

theorem k2_pay3_apply (v : Vec Ideal S1000x64 .f32) (r : Fin 1000) (k : Fin 64) :
    k2_pay3 (F := Ideal) v (ix2 r k) = if 0 < v (ix2 r k) then v (ix2 r k) else Ideal.exp (v (ix2 r k)) - 1 := by
  unfold k2_pay3
  exact elu_select (v (ix2 r k))

end Cert.KernelIdeal.Val

end
-- ==== Proof.Val1Fold.lean ====
import proofs.«413069_j24043226923662_1_alg».proof.Proof.Gen.KernelIdeal.Skeleton
import proofs.«413069_j24043226923662_1_alg».proof.Proof.ValPay

noncomputable section

open scoped BigOperators

namespace Cert.KernelIdeal.Val

open Idealize.ShloMosaic Cert.KernelIdeal Cert.KernelIdeal.Gen Idealize.ShloMosaic.ValueIdx

theorem word_eq_ofNat_iff (w : BitVec 32) (j : ℕ) (hj : j < 4294967296) : w = BitVec.ofNat 32 j ↔ w.toNat = j := by
  constructor
  · intro h
    rw [h, BitVec.toNat_ofNat]
    exact Nat.mod_eq_of_lt hj
  · intro h
    apply BitVec.eq_of_toNat_eq
    rw [BitVec.toNat_ofNat, h]
    exact (Nat.mod_eq_of_lt hj).symm

theorem tile_sum (w : BitVec 32) (v : ℕ) (hv : w.toNat = v) (n : ℕ) (hn : n < 50) (g : Fin 1000 → EReal) :
    (∑ j : Fin 1000, (if w = BitVec.ofNat 32 (n * 1000 + j.val) then (1 : EReal) else 0) * g j)
      = if h : 1000 * n ≤ v ∧ v < 1000 * (n + 1) then g ⟨v - 1000 * n, by omega⟩ else 0 := by
  by_cases h : 1000 * n ≤ v ∧ v < 1000 * (n + 1)
  · rw [dif_pos h]
    refine sum_onehot_mul_of_unique _ g ⟨v - 1000 * n, by omega⟩ fun j => ?_
    rw [word_eq_ofNat_iff w _ (by have := j.isLt; omega), hv]
    constructor
    · intro hj
      exact Fin.ext (by show j.val = v - 1000 * n; omega)
    · intro hj
      rw [hj]
      show v = n * 1000 + (v - 1000 * n)
      omega
  · rw [dif_neg h]
    refine sum_onehot_mul_of_none _ g fun j hj => h ?_
    rw [word_eq_ofNat_iff w _ (by have := j.isLt; omega), hv] at hj
    have := j.isLt
    omega

theorem tile_gather (x : Vec Ideal S2000x1 .i32) (i : grid1.Coords) (wb : Vec Ideal S1000x64 .bf16) (r : Fin 2000) (k : Fin 64)
    (n : ℕ) (hn : n < 50) (hi : (i 1).val = n) (v : ℕ) (hv : BitVec.toNat (x (ix2 r 0)) = v) (hv50 : v < 50000)
    (f : Fin 50000 → EReal) (hf : ∀ j : Fin 1000, wb (ix2 j k) = f ⟨1000 * n + j.val, by omega⟩) :
    (∑ j : Fin 1000, onehot x i r j * wb (ix2 j k)) = if 1000 * n ≤ v ∧ v < 1000 * (n + 1) then f ⟨v, hv50⟩ else 0 := by
  have e1 : (∑ j : Fin 1000, onehot x i r j * wb (ix2 j k))
      = ∑ j : Fin 1000, (if x (ix2 r 0) = BitVec.ofNat 32 (n * 1000 + j.val) then (1 : EReal) else 0) * wb (ix2 j k) :=
    Finset.sum_congr rfl fun j _ => by rw [onehot_def, hi]
  rw [e1, tile_sum (x (ix2 r 0)) v hv n hn (fun j => wb (ix2 j k))]
  by_cases h : 1000 * n ≤ v ∧ v < 1000 * (n + 1)
  · rw [dif_pos h, if_pos h]
    exact (hf _).trans (congrArg f (Fin.ext (by show 1000 * n + (v - 1000 * n) = v; omega)))
  · rw [dif_neg h, if_neg h]

section Fold
variable (idxw : Vec Ideal S800000x1 .i32) (whw : Vec Ideal S50000x64 .bf16) (e : Fin 400)
  (pay : grid1.Coords → Vec Ideal S2000x1 .i32 → Vec Ideal S1000x64 .bf16 → Vec Ideal S2000x64 .f32 → Vec Ideal S2000x64 .f32)
  (hpay : ∀ (i : grid1.Coords) (x : Vec Ideal S2000x1 .i32) (wh : Vec Ideal S1000x64 .bf16) (acc : Vec Ideal S2000x64 .f32)
    (r : Fin 2000) (k : Fin 64), pay i x wh acc (ix2 r k) = acc (ix2 r k) + ∑ j : Fin 1000, onehot x i r j * wh (ix2 j k))
  (co : Fin 50 → grid1.Coords) (xb : Fin 50 → Vec Ideal S2000x1 .i32) (wb : Fin 50 → Vec Ideal S1000x64 .bf16)
  (S : Fin 50 → Vec Ideal S2000x64 .f32)
  (hco : ∀ n : Fin 50, ((co n) 1).val = n.val)
  (hxb : ∀ (n : Fin 50) (r : Fin 2000), xb n (ix2 r 0) = idxw (ix2 ⟨2000 * e.val + r.val, by omega⟩ 0))
  (hwb : ∀ (n : Fin 50) (j : Fin 1000) (k : Fin 64), wb n (ix2 j k) = whw (ix2 ⟨1000 * n.val + j.val, by omega⟩ k))
  (z : Vec Ideal S2000x64 .f32) (hz : z = fun _ => 0)
  (h0 : S ⟨0, by omega⟩ = pay (co ⟨0, by omega⟩) (xb ⟨0, by omega⟩) (wb ⟨0, by omega⟩) z)
  (hs : ∀ (n : ℕ) (hn : n + 1 < 50),
    S ⟨n + 1, hn⟩ = pay (co ⟨n + 1, hn⟩) (xb ⟨n + 1, hn⟩) (wb ⟨n + 1, hn⟩) (S ⟨n, by omega⟩))

include hpay hco hxb hwb hz h0 hs in

theorem gather_fold_inv (r : Fin 2000) (k : Fin 64) (v : ℕ)
    (hv : BitVec.toNat (idxw (ix2 ⟨2000 * e.val + r.val, by omega⟩ 0)) = v) (hv50 : v < 50000) :
    ∀ (n : ℕ) (hn : n < 50), S ⟨n, hn⟩ (ix2 r k) = if v < 1000 * (n + 1) then whw (ix2 ⟨v, hv50⟩ k) else 0 := by
  have tile : ∀ m : Fin 50, (∑ j : Fin 1000, onehot (xb m) (co m) r j * wb m (ix2 j k))
      = if 1000 * m.val ≤ v ∧ v < 1000 * (m.val + 1) then whw (ix2 ⟨v, hv50⟩ k) else 0 := fun m =>
    tile_gather (xb m) (co m) (wb m) r k m.val m.isLt (hco m) v (by rw [hxb m r]; exact hv) hv50
      (fun q => whw (ix2 q k)) (fun j => hwb m j k)
  intro n
  induction n with
  | zero =>
    intro hn
    rw [h0, hpay, hz, tile ⟨0, by omega⟩]
    show (0 : EReal) + (if 1000 * 0 ≤ v ∧ v < 1000 * (0 + 1) then whw (ix2 ⟨v, hv50⟩ k) else 0)
      = if v < 1000 * (0 + 1) then whw (ix2 ⟨v, hv50⟩ k) else 0
    by_cases h : v < 1000 * (0 + 1)
    · have h' : 1000 * 0 ≤ v ∧ v < 1000 * (0 + 1) := ⟨by omega, h⟩
      rw [if_pos h', if_pos h, zero_add]
    · have h' : ¬(1000 * 0 ≤ v ∧ v < 1000 * (0 + 1)) := fun h' => h h'.2
      rw [if_neg h', if_neg h, zero_add]
  | succ n ih =>
    intro hn
    rw [hs n hn, hpay, ih (by omega), tile ⟨n + 1, hn⟩]
    show (if v < 1000 * (n + 1) then whw (ix2 ⟨v, hv50⟩ k) else 0)
        + (if 1000 * (n + 1) ≤ v ∧ v < 1000 * (n + 1 + 1) then whw (ix2 ⟨v, hv50⟩ k) else 0)
      = if v < 1000 * (n + 1 + 1) then whw (ix2 ⟨v, hv50⟩ k) else 0
    by_cases h1 : v < 1000 * (n + 1)
    · have h2 : ¬(1000 * (n + 1) ≤ v ∧ v < 1000 * (n + 1 + 1)) := by omega
      have h3 : v < 1000 * (n + 1 + 1) := by omega
      rw [if_pos h1, if_neg h2, if_pos h3, add_zero]
    · by_cases h3 : v < 1000 * (n + 1 + 1)
      · have h2 : 1000 * (n + 1) ≤ v ∧ v < 1000 * (n + 1 + 1) := ⟨by omega, h3⟩
        rw [if_neg h1, if_pos h2, if_pos h3, zero_add]
      · have h2 : ¬(1000 * (n + 1) ≤ v ∧ v < 1000 * (n + 1 + 1)) := fun h' => h3 h'.2
        rw [if_neg h1, if_neg h2, if_neg h3, zero_add]

include hpay hco hxb hwb hz h0 hs in

theorem gather_fold (hidx : ∀ q : Fin 800000, BitVec.toNat (idxw (ix2 q 0)) < 50000) (r : Fin 2000) (k : Fin 64) :
    S ⟨49, by omega⟩ (ix2 r k)
      = whw (ix2 ⟨BitVec.toNat (idxw (ix2 ⟨2000 * e.val + r.val, by omega⟩ 0)), hidx _⟩ k) := by
  rw [gather_fold_inv idxw whw e pay hpay co xb wb S hco hxb hwb z hz h0 hs r k _ rfl (hidx _) 49 (by omega)]
  exact if_pos (by have := hidx ⟨2000 * e.val + r.val, by omega⟩; omega)

end Fold

end Cert.KernelIdeal.Val

end
-- ==== Proof.Val1.lean ====
import proofs.«413069_j24043226923662_1_alg».proof.Proof.KI.R1Frame
import proofs.«413069_j24043226923662_1_alg».proof.Proof.Val1Fold
import Idealize.ShloMosaic.Lib.Pipeline.Value

noncomputable section

open scoped BigOperators

namespace Cert.KernelIdeal.Val

open Idealize.ShloMosaic Idealize.ShloMosaic.TcCoe Idealize.SL.Sem
open Cert.KernelIdeal Cert.KernelIdeal.Gen Cert.KernelIdeal.Hand Idealize.ShloMosaic.ValueIdx
open Idealize.ShloMosaic.Pipeline (Dat Cfg Window)

theorem lt_N1 (t : Fin cfg1.N) : t.val < 20000 := N_1 ▸ t.isLt

theorem coords1_0 (t : Fin cfg1.N) : (grid1.coords t 0).val = t.val / 50 := by
  have hN : t.val < 20000 := lt_N1 t
  have hs : grid1.stride 0 = 50 := by decide
  show t.val / grid1.stride 0 % 400 = t.val / 50
  rw [hs]
  omega

theorem coords1_1 (t : Fin cfg1.N) : (grid1.coords t 1).val = t.val % 50 := by
  have hs : grid1.stride 1 = 1 := by decide
  show t.val / grid1.stride 1 % 50 = t.val % 50
  rw [hs, Nat.div_one]

theorem index1_0 (t : Fin cfg1.N) : win1_0.index t (0 : Fin 2) = t.val % 50 ∧ win1_0.index t (1 : Fin 2) = 0 := by
  refine ⟨?_, rfl⟩
  show (BitVec.ofNat 32 (grid1.coords t 1).val).toNat = t.val % 50
  rw [BitVec.toNat_ofNat, coords1_1]
  exact Nat.mod_eq_of_lt (by omega)

theorem index1_edge (t : Fin cfg1.N) : (BitVec.ofNat 32 (grid1.coords t 0).val).toNat = t.val / 50 := by
  have hN : t.val < 20000 := lt_N1 t
  rw [BitVec.toNat_ofNat, coords1_0]
  exact Nat.mod_eq_of_lt (by omega)
theorem index1_1 (t : Fin cfg1.N) : win1_1.index t (0 : Fin 2) = t.val / 50 ∧ win1_1.index t (1 : Fin 2) = 0 := ⟨index1_edge t, rfl⟩
theorem index1_2 (t : Fin cfg1.N) : win1_2.index t (0 : Fin 2) = t.val / 50 ∧ win1_2.index t (1 : Fin 2) = 0 := ⟨index1_edge t, rfl⟩
theorem index1_3 (t : Fin cfg1.N) : win1_3.index t (0 : Fin 2) = 0 ∧ win1_3.index t (1 : Fin 2) = 0 := ⟨rfl, rfl⟩
theorem index1_4 (t : Fin cfg1.N) : win1_4.index t (0 : Fin 2) = t.val / 50 ∧ win1_4.index t (1 : Fin 2) = 0 := ⟨index1_edge t, rfl⟩
theorem index1_6 (t : Fin cfg1.N) : win1_6.index t (0 : Fin 2) = t.val / 50 ∧ win1_6.index t (1 : Fin 2) = 0 := ⟨index1_edge t, rfl⟩

def gathAt (idxw : Vec Ideal S800000x1 .i32) (tab : Vec Ideal S50000x64 .bf16)
    (h : ∀ q : Fin 800000, BitVec.toNat (idxw (ix2 q 0)) < 50000) (q : Fin 800000) (k : Fin 64) : EReal :=
  tab (ix2 ⟨BitVec.toNat (idxw (ix2 q 0)), h q⟩ k)

def gath (idxw : Vec Ideal S800000x1 .i32) (tab : Vec Ideal S50000x64 .bf16)
    (h : ∀ q : Fin 800000, BitVec.toNat (idxw (ix2 q 0)) < 50000) : Vec Ideal S800000x64 .bf16 :=
  fun i => gathAt idxw tab h ⟨(i 0).val, idx2_lt0 i⟩ ⟨(i 1).val, idx2_lt1 i⟩

theorem gath_apply (idxw : Vec Ideal S800000x1 .i32) (tab : Vec Ideal S50000x64 .bf16)
    (h : ∀ q : Fin 800000, BitVec.toNat (idxw (ix2 q 0)) < 50000) (q : Fin 800000) (k : Fin 64) :
    gath idxw tab h (ix2 q k) = tab (ix2 ⟨BitVec.toNat (idxw (ix2 q 0)), h q⟩ k) := rfl

def lreluK (raw : EReal) : EReal := if 0 < raw then raw else Ideal.ofBits .f32 0x3E4CCCCD#32 * raw

def scoreAt (srcw dstw : Vec Ideal S800000x1 .i32) (tab : Vec Ideal S50000x64 .bf16) (scale : Vec Ideal S1x1 .f32)
    (hsrc : ∀ q : Fin 800000, BitVec.toNat (srcw (ix2 q 0)) < 50000)
    (hdst : ∀ q : Fin 800000, BitVec.toNat (dstw (ix2 q 0)) < 50000) (q : Fin 800000) : EReal :=
  lreluK ((∑ k : Fin 64, gathAt srcw tab hsrc q k * gathAt dstw tab hdst q k) * scale (ix2 0 0))

def score (srcw dstw : Vec Ideal S800000x1 .i32) (tab : Vec Ideal S50000x64 .bf16) (scale : Vec Ideal S1x1 .f32)
    (hsrc : ∀ q : Fin 800000, BitVec.toNat (srcw (ix2 q 0)) < 50000)
    (hdst : ∀ q : Fin 800000, BitVec.toNat (dstw (ix2 q 0)) < 50000) : Vec Ideal S800000x1 .f32 :=
  fun i => scoreAt srcw dstw tab scale hsrc hdst ⟨(i 0).val, idx2_lt0 i⟩

theorem score_apply (srcw dstw : Vec Ideal S800000x1 .i32) (tab : Vec Ideal S50000x64 .bf16) (scale : Vec Ideal S1x1 .f32)
    (hsrc : ∀ q : Fin 800000, BitVec.toNat (srcw (ix2 q 0)) < 50000)
    (hdst : ∀ q : Fin 800000, BitVec.toNat (dstw (ix2 q 0)) < 50000) (q : Fin 800000) (u : Fin 1) :
    score srcw dstw tab scale hsrc hdst (ix2 q u)
      = lreluK ((∑ k : Fin 64, tab (ix2 ⟨BitVec.toNat (srcw (ix2 q 0)), hsrc q⟩ k)
          * tab (ix2 ⟨BitVec.toNat (dstw (ix2 q 0)), hdst q⟩ k)) * scale (ix2 0 0)) := rfl

variable (V : (c : Dev nD) → (b : Ref sig .tc) → Buf (Elt Ideal) ((c : Thread nD τ).loc b))

abbrev whw (c : Dev nD) : Vec Ideal S50000x64 .bf16 := V c main_v8
abbrev srcw (c : Dev nD) : Vec Ideal S800000x1 .i32 := V c main_v2
abbrev dstw (c : Dev nD) : Vec Ideal S800000x1 .i32 := V c main_v5
abbrev scalew (c : Dev nD) : Vec Ideal S1x1 .f32 := V c main_v7

abbrev whblk (c : Dev nD) (t : Fin cfg1.N) : Vec Ideal S1000x64 .bf16 := iblk1 V c 0 t
abbrev srcblk (c : Dev nD) (t : Fin cfg1.N) : Vec Ideal S2000x1 .i32 := iblk1 V c 1 t
abbrev dstblk (c : Dev nD) (t : Fin cfg1.N) : Vec Ideal S2000x1 .i32 := iblk1 V c 2 t
abbrev sclblk (c : Dev nD) (t : Fin cfg1.N) : Vec Ideal S1x1 .f32 := iblk1 V c 3 t

theorem whblk_apply (c : Dev nD) (t : Fin cfg1.N) (j : Fin 1000) (k : Fin 64) :
    whblk V c t (ix2 j k) = whw V c (ix2 ⟨1000 * (t.val % 50) + j.val, by omega⟩ k) := by
  show whw V c (((cfg1.win 0).blk t).view.emb (ix2 j k)) = _
  refine congrArg (whw V c) (funext fun a => Fin.ext ?_)
  match a with
  | ⟨0, _⟩ =>
    show win1_0.index t (0 : Fin 2) * 1000 + 1 * j.val = 1000 * (t.val % 50) + j.val
    rw [(index1_0 t).1]; omega
  | ⟨1, _⟩ =>
    show win1_0.index t (1 : Fin 2) * 64 + 1 * k.val = k.val
    rw [(index1_0 t).2]; omega

theorem srcblk_apply (c : Dev nD) (t : Fin cfg1.N) (r : Fin 2000) (u : Fin 1) :
    srcblk V c t (ix2 r u) = srcw V c (ix2 ⟨2000 * (t.val / 50) + r.val, by have := lt_N1 t; omega⟩ 0) := by
  show srcw V c (((cfg1.win 1).blk t).view.emb (ix2 r u)) = _
  refine congrArg (srcw V c) (funext fun a => Fin.ext ?_)
  match a with
  | ⟨0, _⟩ =>
    show win1_1.index t (0 : Fin 2) * 2000 + 1 * r.val = 2000 * (t.val / 50) + r.val
    rw [(index1_1 t).1]; omega
  | ⟨1, _⟩ =>
    show win1_1.index t (1 : Fin 2) * 1 + 1 * u.val = 0
    rw [(index1_1 t).2]; omega
theorem dstblk_apply (c : Dev nD) (t : Fin cfg1.N) (r : Fin 2000) (u : Fin 1) :
    dstblk V c t (ix2 r u) = dstw V c (ix2 ⟨2000 * (t.val / 50) + r.val, by have := lt_N1 t; omega⟩ 0) := by
  show dstw V c (((cfg1.win 2).blk t).view.emb (ix2 r u)) = _
  refine congrArg (dstw V c) (funext fun a => Fin.ext ?_)
  match a with
  | ⟨0, _⟩ =>
    show win1_2.index t (0 : Fin 2) * 2000 + 1 * r.val = 2000 * (t.val / 50) + r.val
    rw [(index1_2 t).1]; omega
  | ⟨1, _⟩ =>
    show win1_2.index t (1 : Fin 2) * 1 + 1 * u.val = 0
    rw [(index1_2 t).2]; omega

theorem sclblk_apply (c : Dev nD) (t : Fin cfg1.N) : sclblk V c t (ix2 0 0) = scalew V c (ix2 0 0) := by
  show scalew V c (((cfg1.win 3).blk t).view.emb (ix2 0 0)) = _
  refine congrArg (scalew V c) (funext fun a => Fin.ext ?_)
  match a with
  | ⟨0, _⟩ => rfl
  | ⟨1, _⟩ => rfl

abbrev n49 : Fin 50 := ⟨49, by decide⟩

def pt (e : Fin 400) (n : Fin 50) : Fin cfg1.N := ⟨50 * e.val + n.val, by rw [show cfg1.N = 20000 from N_1]; omega⟩

theorem pt_div (e : Fin 400) (n : Fin 50) : (pt e n).val / 50 = e.val := by
  show (50 * e.val + n.val) / 50 = e.val
  omega
theorem pt_mod (e : Fin 400) (n : Fin 50) : (pt e n).val % 50 = n.val := by
  show (50 * e.val + n.val) % 50 = n.val
  omega

abbrev S9 (c : Dev nD) (t : Fin cfg1.N) : Vec Ideal S2000x64 .f32 := acc8 V c t.val t.isLt
abbrev S10 (c : Dev nD) (t : Fin cfg1.N) : Vec Ideal S2000x64 .f32 := acc9 V c t.val t.isLt

theorem S9_last (c : Dev nD) (hsrc : ∀ q : Fin 800000, BitVec.toNat (srcw V c (ix2 q 0)) < 50000)
    (e : Fin 400) (r : Fin 2000) (k : Fin 64) :
    S9 V c (pt e n49) (ix2 r k)
      = whw V c (ix2 ⟨BitVec.toNat (srcw V c (ix2 ⟨2000 * e.val + r.val, by omega⟩ 0)), hsrc _⟩ k) := by
  refine gather_fold (srcw V c) (whw V c) e (k1_pay8 (F := Ideal)) k1_pay8_apply
    (fun n => grid1.coords (pt e n)) (fun n => srcblk V c (pt e n)) (fun n => whblk V c (pt e n))
    (fun n => S9 V c (pt e n)) ?hco ?hxb ?hwb (k1_pay4 (F := Ideal)) k1_pay4_eq ?h0 ?hs hsrc r k
  case hco =>
    intro n
    exact (coords1_1 (pt e n)).trans (pt_mod e n)
  case hxb =>
    intro n r
    refine (srcblk_apply V c (pt e n) r 0).trans ?_
    exact congrArg (fun q => srcw V c (ix2 q 0)) (Fin.ext (by
      show 2000 * ((pt e n).val / 50) + r.val = 2000 * e.val + r.val
      rw [pt_div]))
  case hwb =>
    intro n j k
    refine (whblk_apply V c (pt e n) j k).trans ?_
    exact congrArg (fun q => whw V c (ix2 q k)) (Fin.ext (by
      show 1000 * ((pt e n).val % 50) + j.val = 1000 * n.val + j.val
      rw [pt_mod]))
  case h0 => exact acc8_first V c (pt e ⟨0, by omega⟩) (pt_mod e _)
  case hs =>
    intro n hn
    refine (acc8_step V c (pt e ⟨n + 1, hn⟩) (by rw [pt_mod]; exact Nat.succ_ne_zero n)).trans ?_
    refine congrArg (k1_pay8 (F := Ideal) (grid1.coords (pt e ⟨n + 1, hn⟩)) (iblk1 V c 1 (pt e ⟨n + 1, hn⟩)) (iblk1 V c 0 (pt e ⟨n + 1, hn⟩))) ?_
    exact acc8_congr V c (by show 50 * e.val + (n + 1) - 1 = 50 * e.val + n; omega) _ _

theorem S10_last (c : Dev nD) (hdst : ∀ q : Fin 800000, BitVec.toNat (dstw V c (ix2 q 0)) < 50000)
    (e : Fin 400) (r : Fin 2000) (k : Fin 64) :
    S10 V c (pt e n49) (ix2 r k)
      = whw V c (ix2 ⟨BitVec.toNat (dstw V c (ix2 ⟨2000 * e.val + r.val, by omega⟩ 0)), hdst _⟩ k) := by
  refine gather_fold (dstw V c) (whw V c) e (k1_pay9 (F := Ideal)) k1_pay9_apply
    (fun n => grid1.coords (pt e n)) (fun n => dstblk V c (pt e n)) (fun n => whblk V c (pt e n))
    (fun n => S10 V c (pt e n)) ?hco ?hxb ?hwb (k1_pay5 (F := Ideal)) k1_pay5_eq ?h0 ?hs hdst r k
  case hco =>
    intro n
    exact (coords1_1 (pt e n)).trans (pt_mod e n)
  case hxb =>
    intro n r
    refine (dstblk_apply V c (pt e n) r 0).trans ?_
    exact congrArg (fun q => dstw V c (ix2 q 0)) (Fin.ext (by
      show 2000 * ((pt e n).val / 50) + r.val = 2000 * e.val + r.val
      rw [pt_div]))
  case hwb =>
    intro n j k
    refine (whblk_apply V c (pt e n) j k).trans ?_
    exact congrArg (fun q => whw V c (ix2 q k)) (Fin.ext (by
      show 1000 * ((pt e n).val % 50) + j.val = 1000 * n.val + j.val
      rw [pt_mod]))
  case h0 => exact acc9_first V c (pt e ⟨0, by omega⟩) (pt_mod e _)
  case hs =>
    intro n hn
    refine (acc9_step V c (pt e ⟨n + 1, hn⟩) (by rw [pt_mod]; exact Nat.succ_ne_zero n)).trans ?_
    refine congrArg (k1_pay9 (F := Ideal) (grid1.coords (pt e ⟨n + 1, hn⟩)) (iblk1 V c 2 (pt e ⟨n + 1, hn⟩)) (iblk1 V c 0 (pt e ⟨n + 1, hn⟩))) ?_
    exact acc9_congr V c (by show 50 * e.val + (n + 1) - 1 = 50 * e.val + n; omega) _ _

theorem exists_pt_of_last (t : Fin cfg1.N) (ht : t.val % 50 = 49) : ∃ e : Fin 400, t = pt e n49 :=
  ⟨⟨t.val / 50, by have := lt_N1 t; omega⟩, Fin.ext (by show t.val = 50 * (t.val / 50) + 49; omega)⟩

theorem emb1_4 (e : Fin 400) (n : Fin 50) (r : Fin 2000) (k : Fin 64) :
    (((cfg1.win 4).blk (pt e n)).view.emb (ix2 r k) : S800000x64.Idx) = ix2 ⟨2000 * e.val + r.val, by omega⟩ k := by
  funext a; apply Fin.ext
  match a with
  | ⟨0, _⟩ =>
    show win1_4.index (pt e n) (0 : Fin 2) * 2000 + 1 * r.val = 2000 * e.val + r.val
    rw [(index1_4 _).1, pt_div]; omega
  | ⟨1, _⟩ =>
    show win1_4.index (pt e n) (1 : Fin 2) * 64 + 1 * k.val = k.val
    rw [(index1_4 _).2]; omega
theorem emb1_5 (e : Fin 400) (n : Fin 50) (r : Fin 2000) (k : Fin 64) :
    (((cfg1.win 5).blk (pt e n)).view.emb (ix2 r k) : S800000x64.Idx) = ix2 ⟨2000 * e.val + r.val, by omega⟩ k := emb1_4 e n r k
theorem emb1_6 (e : Fin 400) (n : Fin 50) (r : Fin 2000) (u : Fin 1) :
    (((cfg1.win 6).blk (pt e n)).view.emb (ix2 r u) : S800000x1.Idx) = ix2 ⟨2000 * e.val + r.val, by omega⟩ u := by
  funext a; apply Fin.ext
  match a with
  | ⟨0, _⟩ =>
    show win1_6.index (pt e n) (0 : Fin 2) * 2000 + 1 * r.val = 2000 * e.val + r.val
    rw [(index1_6 _).1, pt_div]; omega
  | ⟨1, _⟩ =>
    show win1_6.index (pt e n) (1 : Fin 2) * 1 + 1 * u.val = u.val
    rw [(index1_6 _).2]; omega

theorem flushed1_4_eq (c : Dev nD) (hsrc : ∀ q : Fin 800000, BitVec.toNat (srcw V c (ix2 q 0)) < 50000)
    (t : Fin cfg1.N) (ht : t.val % 50 = 49) :
    (dat1 V c).flushed 4 t = ((cfg1.win 4).blk t).view.read (Elt Ideal) (gath (srcw V c) (whw V c) hsrc) := by
  show (cfg1.win 4).cut (grid1.coords t) ((dat1 V c).after 4 t) = _
  rw [after1_4]
  obtain ⟨e, rfl⟩ := exists_pt_of_last t ht
  funext y
  obtain ⟨r, k, rfl⟩ : ∃ (r : Fin 2000) (k : Fin 64), y = ix2 r k := ⟨y 0, y 1, eq_ix2 y⟩
  show S9 V c (pt e n49) (ix2 r k)
    = gath (srcw V c) (whw V c) hsrc (((cfg1.win 4).blk (pt e n49)).view.emb (ix2 r k))
  rw [S9_last V c hsrc e r k, emb1_4, gath_apply]

theorem flushed1_5_eq (c : Dev nD) (hdst : ∀ q : Fin 800000, BitVec.toNat (dstw V c (ix2 q 0)) < 50000)
    (t : Fin cfg1.N) (ht : t.val % 50 = 49) :
    (dat1 V c).flushed 5 t = ((cfg1.win 5).blk t).view.read (Elt Ideal) (gath (dstw V c) (whw V c) hdst) := by
  show (cfg1.win 5).cut (grid1.coords t) ((dat1 V c).after 5 t) = _
  rw [after1_5]
  obtain ⟨e, rfl⟩ := exists_pt_of_last t ht
  funext y
  obtain ⟨r, k, rfl⟩ : ∃ (r : Fin 2000) (k : Fin 64), y = ix2 r k := ⟨y 0, y 1, eq_ix2 y⟩
  show S10 V c (pt e n49) (ix2 r k)
    = gath (dstw V c) (whw V c) hdst (((cfg1.win 5).blk (pt e n49)).view.emb (ix2 r k))
  rw [S10_last V c hdst e r k, emb1_5, gath_apply]

theorem flushed1_6_eq (c : Dev nD) (hsrc : ∀ q : Fin 800000, BitVec.toNat (srcw V c (ix2 q 0)) < 50000)
    (hdst : ∀ q : Fin 800000, BitVec.toNat (dstw V c (ix2 q 0)) < 50000) (t : Fin cfg1.N) (ht : t.val % 50 = 49) :
    (dat1 V c).flushed 6 t = ((cfg1.win 6).blk t).view.read (Elt Ideal)
      (score (srcw V c) (dstw V c) (whw V c) (scalew V c) hsrc hdst) := by
  show (cfg1.win 6).cut (grid1.coords t) ((dat1 V c).after 6 t) = _
  rw [after1_6]
  obtain ⟨e, rfl⟩ := exists_pt_of_last t ht
  funext y
  obtain ⟨r, u, rfl⟩ : ∃ (r : Fin 2000) (u : Fin 1), y = ix2 r u := ⟨y 0, y 1, eq_ix2 y⟩
  obtain rfl : u = 0 := Subsingleton.elim _ _
  show k1_pay3 (F := Ideal) (S9 V c (pt e n49)) (S10 V c (pt e n49)) (sclblk V c (pt e n49)) (ix2 r 0)
    = score (srcw V c) (dstw V c) (whw V c) (scalew V c) hsrc hdst (((cfg1.win 6).blk (pt e n49)).view.emb (ix2 r 0))
  rw [emb1_6, score_apply, k1_pay3_apply]
  have hs : (∑ k : Fin 64, S9 V c (pt e n49) (ix2 r k) * S10 V c (pt e n49) (ix2 r k))
      = ∑ k : Fin 64, whw V c (ix2 ⟨BitVec.toNat (srcw V c (ix2 ⟨2000 * e.val + r.val, by omega⟩ 0)), hsrc _⟩ k)
          * whw V c (ix2 ⟨BitVec.toNat (dstw V c (ix2 ⟨2000 * e.val + r.val, by omega⟩ 0)), hdst _⟩ k) :=
    Finset.sum_congr rfl fun k _ => by rw [S9_last V c hsrc e r k, S10_last V c hdst e r k]
  show lreluK ((∑ k : Fin 64, S9 V c (pt e n49) (ix2 r k) * S10 V c (pt e n49) (ix2 r k))
      * sclblk V c (pt e n49) (ix2 0 0)) = _
  rw [hs, sclblk_apply]

theorem mem_blk1_4 (t : Fin cfg1.N) (i : S800000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v9_0).slice (win1_4.rect t)).set ↔ _
  rw [View.set_slice_whole, Rect.mem_set_unit]
  exact Iff.rfl
theorem mem_blk1_6 (t : Fin cfg1.N) (i : S800000x1.Idx) :
    i ∈ ((cfg1.win 6).blk t).view.set ↔ ∀ a : Fin 2, win1_6.index t a * S2000x1.size a ≤ (i a).val
      ∧ (i a).val < win1_6.index t a * S2000x1.size a + S2000x1.size a := by
  show i ∈ ((View.whole main_v9_2).slice (win1_6.rect t)).set ↔ _
  rw [View.set_slice_whole, Rect.mem_set_unit]
  exact Iff.rfl

theorem cover1_4 (i : S800000x64.Idx) :
    ∃ t : Fin cfg1.N, (cfg1.win 4).flush t = true ∧ i ∈ ((cfg1.win 4).blk t).view.set := by
  have hi0 : (i 0).val < 800000 := (i 0).isLt
  have hi1 : (i 1).val < 64 := (i 1).isLt
  refine ⟨pt ⟨(i 0).val / 2000, by omega⟩ n49, (flush1_4 _).mpr (pt_mod _ _), ?_⟩
  rw [mem_blk1_4]
  intro a
  match a with
  | ⟨0, _⟩ =>
    show win1_4.index _ (0 : Fin 2) * 2000 ≤ (i 0).val ∧ (i 0).val < win1_4.index _ (0 : Fin 2) * 2000 + 2000
    rw [(index1_4 _).1, pt_div]
    show (i 0).val / 2000 * 2000 ≤ (i 0).val ∧ (i 0).val < (i 0).val / 2000 * 2000 + 2000
    omega
  | ⟨1, _⟩ =>
    show win1_4.index _ (1 : Fin 2) * 64 ≤ (i 1).val ∧ (i 1).val < win1_4.index _ (1 : Fin 2) * 64 + 64
    rw [(index1_4 _).2]; omega
theorem cover1_5 (i : S800000x64.Idx) :
    ∃ t : Fin cfg1.N, (cfg1.win 5).flush t = true ∧ i ∈ ((cfg1.win 5).blk t).view.set := cover1_4 i
theorem cover1_6 (i : S800000x1.Idx) :
    ∃ t : Fin cfg1.N, (cfg1.win 6).flush t = true ∧ i ∈ ((cfg1.win 6).blk t).view.set := by
  have hi0 : (i 0).val < 800000 := (i 0).isLt
  have hi1 : (i 1).val < 1 := (i 1).isLt
  refine ⟨pt ⟨(i 0).val / 2000, by omega⟩ n49, (flush1_6 _).mpr (pt_mod _ _), ?_⟩
  rw [mem_blk1_6]
  intro a
  match a with
  | ⟨0, _⟩ =>
    show win1_6.index _ (0 : Fin 2) * 2000 ≤ (i 0).val ∧ (i 0).val < win1_6.index _ (0 : Fin 2) * 2000 + 2000
    rw [(index1_6 _).1, pt_div]
    show (i 0).val / 2000 * 2000 ≤ (i 0).val ∧ (i 0).val < (i 0).val / 2000 * 2000 + 2000
    omega
  | ⟨1, _⟩ =>
    show win1_6.index _ (1 : Fin 2) * 1 ≤ (i 1).val ∧ (i 1).val < win1_6.index _ (1 : Fin 2) * 1 + 1
    rw [(index1_6 _).2]; omega

theorem arr1_4_eq (c : Dev nD) (hsrc : ∀ q : Fin 800000, BitVec.toNat (srcw V c (ix2 q 0)) < 50000) :
    (dat1 (F := Ideal) V c).arrAt 4 cfg1.N = gath (srcw V c) (whw V c) hsrc :=
  (dat1 V c).arrAt_eq_of_cover 4 (gath (srcw V c) (whw V c) hsrc)
    (fun t hf => flushed1_4_eq V c hsrc t ((flush1_4 t).mp hf)) cover1_4

theorem arr1_5_eq (c : Dev nD) (hdst : ∀ q : Fin 800000, BitVec.toNat (dstw V c (ix2 q 0)) < 50000) :
    (dat1 (F := Ideal) V c).arrAt 5 cfg1.N = gath (dstw V c) (whw V c) hdst :=
  (dat1 V c).arrAt_eq_of_cover 5 (gath (dstw V c) (whw V c) hdst)
    (fun t hf => flushed1_5_eq V c hdst t ((flush1_5 t).mp hf)) cover1_5

theorem arr1_6_eq (c : Dev nD) (hsrc : ∀ q : Fin 800000, BitVec.toNat (srcw V c (ix2 q 0)) < 50000)
    (hdst : ∀ q : Fin 800000, BitVec.toNat (dstw V c (ix2 q 0)) < 50000) :
    (dat1 (F := Ideal) V c).arrAt 6 cfg1.N = score (srcw V c) (dstw V c) (whw V c) (scalew V c) hsrc hdst :=
  (dat1 V c).arrAt_eq_of_cover 6 (score (srcw V c) (dstw V c) (whw V c) (scalew V c) hsrc hdst)
    (fun t hf => flushed1_6_eq V c hsrc hdst t ((flush1_6 t).mp hf)) cover1_6

end Cert.KernelIdeal.Val

end
-- ==== Proof.Val2Fold.lean ====
import proofs.«413069_j24043226923662_1_alg».proof.Proof.Gen.KernelIdeal.Skeleton
import proofs.«413069_j24043226923662_1_alg».proof.Proof.ValPay
import Idealize.ShloMosaic.Lib.ValueIdx

noncomputable section

open scoped BigOperators

namespace Cert.KernelIdeal.Val

open Idealize.ShloMosaic Cert.KernelIdeal Cert.KernelIdeal.Gen Idealize.ShloMosaic.ValueIdx

def edgeRow (a : ℕ) (ha : a < 400) (b : Fin 2000) : Fin 800000 := ⟨2000 * a + b.val, by have := b.isLt; omega⟩

theorem edgeRow_val (a : ℕ) (ha : a < 400) (b : Fin 2000) : (edgeRow a ha b).val = 2000 * a + b.val := rfl

theorem sum_edgeRow (g : Fin 800000 → EReal) (a : ℕ) (ha : a < 400) :
    ∑ b : Fin 2000, g (edgeRow a ha b)
      = ∑ q ∈ Finset.univ.filter (fun q : Fin 800000 => 2000 * a ≤ q.val ∧ q.val < 2000 * (a + 1)), g q := by
  refine Finset.sum_bij (fun b _ => edgeRow a ha b) ?_ ?_ ?_ ?_
  · intro b _
    have hb := b.isLt
    rw [Finset.mem_filter, edgeRow_val]
    exact ⟨Finset.mem_univ _, by omega, by omega⟩
  · intro b₁ _ b₂ _ h
    have hv := congrArg Fin.val h
    rw [edgeRow_val, edgeRow_val] at hv
    exact Fin.ext (by omega)
  · intro q hq
    rw [Finset.mem_filter] at hq
    obtain ⟨-, h1, h2⟩ := hq
    refine ⟨⟨q.val - 2000 * a, by omega⟩, Finset.mem_univ _, Fin.ext ?_⟩
    show 2000 * a + (q.val - 2000 * a) = q.val
    omega
  · intro b _
    rfl

theorem sum_below_succ (g : Fin 800000 → EReal) (a : ℕ) :
    ∑ q ∈ Finset.univ.filter (fun q : Fin 800000 => q.val < 2000 * (a + 1 + 1)), g q
      = ∑ q ∈ Finset.univ.filter (fun q : Fin 800000 => q.val < 2000 * (a + 1)), g q
        + ∑ q ∈ Finset.univ.filter (fun q : Fin 800000 => 2000 * (a + 1) ≤ q.val ∧ q.val < 2000 * (a + 1 + 1)), g q := by
  rw [← Finset.sum_union]
  · refine Finset.sum_congr ?_ fun _ _ => rfl
    ext q
    simp only [Finset.mem_filter, Finset.mem_union, Finset.mem_univ, true_and]
    omega
  · rw [Finset.disjoint_filter]
    intro q _ h1 h2
    omega

theorem word_eq_iff_toNat (w : BitVec 32) (n : ℕ) (hn : n < 2 ^ 32) : w = BitVec.ofNat 32 n ↔ w.toNat = n := by
  constructor
  · intro h
    rw [h, BitVec.toNat_ofNat, Nat.mod_eq_of_lt hn]
  · intro h
    exact BitVec.eq_of_toNat_eq (by rw [BitVec.toNat_ofNat, Nat.mod_eq_of_lt hn]; exact h)

theorem indicator_mul (p : Prop) [Decidable p] (x : EReal) : (if p then (1 : EReal) else 0) * x = if p then x else 0 := by
  split
  · exact one_mul x
  · exact zero_mul x

theorem tile_contribution (nt : ℕ) (hnt : nt < 50)
    (dstw : S800000x1.Idx → BitVec 32) (attn : S800000x1.Idx → EReal) (wsrc : S800000x64.Idx → EReal)
    (i : grid2.Coords) (hi : (i 0).val = nt) (d : Vec Ideal S2000x1 .i32) (att : Vec Ideal S2000x1 .f32) (ws : Vec Ideal S2000x64 .bf16)
    (a : ℕ) (ha : a < 400)
    (hd : ∀ b : Fin 2000, d (ix2 b 0) = dstw (ix2 (edgeRow a ha b) 0))
    (hatt : ∀ b : Fin 2000, att (ix2 b 0) = attn (ix2 (edgeRow a ha b) 0))
    (hws : ∀ (b : Fin 2000) (k : Fin 64), ws (ix2 b k) = wsrc (ix2 (edgeRow a ha b) k))
    (r : Fin 1000) (k : Fin 64) :
    ∑ b : Fin 2000, onehot2 d i b r * (att (ix2 b 0) * ws (ix2 b k))
      = ∑ q ∈ Finset.univ.filter (fun q : Fin 800000 => 2000 * a ≤ q.val ∧ q.val < 2000 * (a + 1)),
          (if (dstw (ix2 q 0)).toNat = 1000 * nt + r.val then attn (ix2 q 0) * wsrc (ix2 q k) else 0) := by
  rw [← sum_edgeRow (fun q => if (dstw (ix2 q 0)).toNat = 1000 * nt + r.val then attn (ix2 q 0) * wsrc (ix2 q k) else 0) a ha]
  refine Finset.sum_congr rfl fun b _ => ?_
  have hn : nt * 1000 + r.val < 2 ^ 32 := by have := r.isLt; omega
  rw [onehot2_def, hd b, hatt b, hws b k, hi, indicator_mul]
  by_cases h : (dstw (ix2 (edgeRow a ha b) 0)).toNat = 1000 * nt + r.val
  · rw [if_pos h, if_pos ((word_eq_iff_toNat _ _ hn).mpr (by omega))]
  · rw [if_neg h, if_neg (fun h' => h (by have := (word_eq_iff_toNat _ _ hn).mp h'; omega))]

theorem scatter_fold (nt : ℕ) (hnt : nt < 50)
    (dstw : S800000x1.Idx → BitVec 32) (attn : S800000x1.Idx → EReal) (wsrc : S800000x64.Idx → EReal)
    (ic : ℕ → grid2.Coords) (db : ℕ → Vec Ideal S2000x1 .i32) (ab : ℕ → Vec Ideal S2000x1 .f32) (wb : ℕ → Vec Ideal S2000x64 .bf16)
    (S : ℕ → Vec Ideal S1000x64 .f32)
    (hic : ∀ a, a < 400 → ((ic a) 0).val = nt)
    (hdb : ∀ a (ha : a < 400) (b : Fin 2000), db a (ix2 b 0) = dstw (ix2 (edgeRow a ha b) 0))
    (hab : ∀ a (ha : a < 400) (b : Fin 2000), ab a (ix2 b 0) = attn (ix2 (edgeRow a ha b) 0))
    (hwb : ∀ a (ha : a < 400) (b : Fin 2000) (k : Fin 64), wb a (ix2 b k) = wsrc (ix2 (edgeRow a ha b) k))
    (h0 : S 0 = k2_pay2 (F := Ideal) (ic 0) (db 0) (ab 0) (wb 0) (k2_pay1 (F := Ideal)))
    (hs : ∀ a, a + 1 < 400 → S (a + 1) = k2_pay2 (F := Ideal) (ic (a + 1)) (db (a + 1)) (ab (a + 1)) (wb (a + 1)) (S a))
    (r : Fin 1000) (k : Fin 64) :
    ∀ a, a < 400 → S a (ix2 r k) = ∑ q ∈ Finset.univ.filter (fun q : Fin 800000 => q.val < 2000 * (a + 1)),
        (if (dstw (ix2 q 0)).toNat = 1000 * nt + r.val then attn (ix2 q 0) * wsrc (ix2 q k) else 0) := by
  intro a
  induction a with
  | zero =>
    intro h
    refine (congrFun h0 (ix2 r k)).trans ?_
    refine (k2_pay2_apply _ _ _ _ _ r k).trans ?_
    rw [tile_contribution nt hnt dstw attn wsrc (ic 0) (hic 0 h) (db 0) (ab 0) (wb 0) 0 h (hdb 0 h) (hab 0 h) (hwb 0 h) r k,
      k2_pay1_eq]
    show (0 : EReal) + _ = _
    rw [zero_add]
    refine Finset.sum_congr ?_ fun _ _ => rfl
    ext q
    simp only [Finset.mem_filter, Finset.mem_univ, true_and]
    omega
  | succ a ih =>
    intro h
    refine (congrFun (hs a h) (ix2 r k)).trans ?_
    refine (k2_pay2_apply _ _ _ _ _ r k).trans ?_
    rw [ih (by omega),
      tile_contribution nt hnt dstw attn wsrc (ic (a + 1)) (hic (a + 1) h) (db (a + 1)) (ab (a + 1)) (wb (a + 1)) (a + 1) h
        (hdb (a + 1) h) (hab (a + 1) h) (hwb (a + 1) h) r k]
    exact (sum_below_succ _ a).symm

theorem scatter_fold_last (nt : ℕ) (hnt : nt < 50)
    (dstw : S800000x1.Idx → BitVec 32) (attn : S800000x1.Idx → EReal) (wsrc : S800000x64.Idx → EReal)
    (ic : ℕ → grid2.Coords) (db : ℕ → Vec Ideal S2000x1 .i32) (ab : ℕ → Vec Ideal S2000x1 .f32) (wb : ℕ → Vec Ideal S2000x64 .bf16)
    (S : ℕ → Vec Ideal S1000x64 .f32)
    (hic : ∀ a, a < 400 → ((ic a) 0).val = nt)
    (hdb : ∀ a (ha : a < 400) (b : Fin 2000), db a (ix2 b 0) = dstw (ix2 (edgeRow a ha b) 0))
    (hab : ∀ a (ha : a < 400) (b : Fin 2000), ab a (ix2 b 0) = attn (ix2 (edgeRow a ha b) 0))
    (hwb : ∀ a (ha : a < 400) (b : Fin 2000) (k : Fin 64), wb a (ix2 b k) = wsrc (ix2 (edgeRow a ha b) k))
    (h0 : S 0 = k2_pay2 (F := Ideal) (ic 0) (db 0) (ab 0) (wb 0) (k2_pay1 (F := Ideal)))
    (hs : ∀ a, a + 1 < 400 → S (a + 1) = k2_pay2 (F := Ideal) (ic (a + 1)) (db (a + 1)) (ab (a + 1)) (wb (a + 1)) (S a))
    (r : Fin 1000) (k : Fin 64) :
    S 399 (ix2 r k) = ∑ q ∈ Finset.univ.filter (fun q : Fin 800000 => (dstw (ix2 q 0)).toNat = 1000 * nt + r.val),
        attn (ix2 q 0) * wsrc (ix2 q k) := by
  rw [scatter_fold nt hnt dstw attn wsrc ic db ab wb S hic hdb hab hwb h0 hs r k 399 (by omega),
    Finset.filter_true_of_mem (fun q _ => by have := q.isLt; omega), Finset.sum_filter]

end Cert.KernelIdeal.Val

end
-- ==== Proof.Val2.lean ====
import proofs.«413069_j24043226923662_1_alg».proof.Proof.KI.R2Frame
import proofs.«413069_j24043226923662_1_alg».proof.Proof.Val2Fold
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev dstw2 (c : Dev nD) : S800000x1.Idx → BitVec 32 := V c main_v5
abbrev attnw2 (c : Dev nD) : S800000x1.Idx → EReal := V c main_v21
abbrev wsrcw2 (c : Dev nD) : S800000x64.Idx → EReal := V c main_v9_0

abbrev dblk (c : Dev nD) (t : Fin cfg2.N) : Vec Ideal S2000x1 .i32 := iblk2 V c 1 t
abbrev ablk (c : Dev nD) (t : Fin cfg2.N) : Vec Ideal S2000x1 .f32 := iblk2 V c 2 t
abbrev wblk (c : Dev nD) (t : Fin cfg2.N) : Vec Ideal S2000x64 .bf16 := iblk2 V c 0 t

def eluK (x : EReal) : EReal := if 0 < x then x else Ideal.exp x - 1

def scatterOut (c : Dev nD) : S50000x64.Idx → EReal := fun i =>
  eluK (∑ q ∈ Finset.univ.filter (fun q : Fin 800000 => (dstw2 V c (ix2 q 0)).toNat = (i 0).val),
    attnw2 V c (ix2 q 0) * wsrcw2 V c (ix2 q (i 1)))

theorem scatterOut_apply (c : Dev nD) (i : S50000x64.Idx) :
    scatterOut V c i = eluK (∑ q ∈ Finset.univ.filter (fun q : Fin 800000 => (dstw2 V c (ix2 q 0)).toNat = (i 0).val),
      attnw2 V c (ix2 q 0) * wsrcw2 V c (ix2 q (i 1))) := rfl

theorem eluK_def (x : EReal) : eluK x = if 0 < x then x else Ideal.exp x - 1 := rfl

theorem N2 : cfg2.N = 20000 := by decide
theorem lt_N2 (t : Fin cfg2.N) : t.val < 20000 := Nat.lt_of_lt_of_eq t.isLt N2

theorem stride2_0 : grid2.stride (0 : Fin 2) = 400 := by decide
theorem stride2_1 : grid2.stride (1 : Fin 2) = 1 := by decide

theorem coords2_0 (t : Fin cfg2.N) : ((grid2.coords t) 0).val = t.val / 400 := by
  have h := lt_N2 t
  show t.val / grid2.stride (0 : Fin 2) % 50 = _
  rw [stride2_0]
  omega
theorem coords2_1 (t : Fin cfg2.N) : ((grid2.coords t) 1).val = t.val % 400 := by
  show t.val / grid2.stride (1 : Fin 2) % 400 = _
  rw [stride2_1]
  omega

theorem toNat_word (n : ℕ) (h : n < 2 ^ 32) : (BitVec.ofNat 32 n).toNat = n := by
  rw [BitVec.toNat_ofNat, Nat.mod_eq_of_lt h]

theorem index2_0 (t : Fin cfg2.N) : win2_0.index t (0 : Fin 2) = t.val % 400 ∧ win2_0.index t (1 : Fin 2) = 0 := by
  refine ⟨?_, rfl⟩
  show (BitVec.ofNat 32 ((grid2.coords t) 1).val).toNat = _
  rw [coords2_1, toNat_word _ (by omega)]
theorem index2_1 (t : Fin cfg2.N) : win2_1.index t (0 : Fin 2) = t.val % 400 ∧ win2_1.index t (1 : Fin 2) = 0 := by
  refine ⟨?_, rfl⟩
  show (BitVec.ofNat 32 ((grid2.coords t) 1).val).toNat = _
  rw [coords2_1, toNat_word _ (by omega)]
theorem index2_2 (t : Fin cfg2.N) : win2_2.index t (0 : Fin 2) = t.val % 400 ∧ win2_2.index t (1 : Fin 2) = 0 := by
  refine ⟨?_, rfl⟩
  show (BitVec.ofNat 32 ((grid2.coords t) 1).val).toNat = _
  rw [coords2_1, toNat_word _ (by omega)]
theorem index2_3 (t : Fin cfg2.N) : win2_3.index t (0 : Fin 2) = t.val / 400 ∧ win2_3.index t (1 : Fin 2) = 0 := by
  have h := lt_N2 t
  refine ⟨?_, rfl⟩
  show (BitVec.ofNat 32 ((grid2.coords t) 0).val).toNat = _
  rw [coords2_0, toNat_word _ (by omega)]

theorem dblk_apply (c : Dev nD) (t : Fin cfg2.N) (b : Fin 2000) (q : Fin 800000) (hq : q.val = 2000 * (t.val % 400) + b.val) :
    dblk V c t (ix2 b 0) = dstw2 V c (ix2 q 0) := by
  obtain ⟨e0, e1⟩ := index2_1 t
  show dstw2 V c (((cfg2.win 1).blk t).view.emb (ix2 b 0)) = dstw2 V c (ix2 q 0)
  refine congrArg (dstw2 V c) (funext fun a => Fin.ext ?_)
  match a with
  | ⟨0, _⟩ => show win2_1.index t (0 : Fin 2) * 2000 + 1 * b.val = q.val; omega
  | ⟨1, _⟩ => show win2_1.index t (1 : Fin 2) * 1 + 1 * 0 = 0; omega

theorem ablk_apply (c : Dev nD) (t : Fin cfg2.N) (b : Fin 2000) (q : Fin 800000) (hq : q.val = 2000 * (t.val % 400) + b.val) :
    ablk V c t (ix2 b 0) = attnw2 V c (ix2 q 0) := by
  obtain ⟨e0, e1⟩ := index2_2 t
  show attnw2 V c (((cfg2.win 2).blk t).view.emb (ix2 b 0)) = attnw2 V c (ix2 q 0)
  refine congrArg (attnw2 V c) (funext fun a => Fin.ext ?_)
  match a with
  | ⟨0, _⟩ => show win2_2.index t (0 : Fin 2) * 2000 + 1 * b.val = q.val; omega
  | ⟨1, _⟩ => show win2_2.index t (1 : Fin 2) * 1 + 1 * 0 = 0; omega

theorem wblk_apply (c : Dev nD) (t : Fin cfg2.N) (b : Fin 2000) (k : Fin 64) (q : Fin 800000) (hq : q.val = 2000 * (t.val % 400) + b.val) :
    wblk V c t (ix2 b k) = wsrcw2 V c (ix2 q k) := by
  obtain ⟨e0, e1⟩ := index2_0 t
  show wsrcw2 V c (((cfg2.win 0).blk t).view.emb (ix2 b k)) = wsrcw2 V c (ix2 q k)
  refine congrArg (wsrcw2 V c) (funext fun a => Fin.ext ?_)
  match a with
  | ⟨0, _⟩ => show win2_0.index t (0 : Fin 2) * 2000 + 1 * b.val = q.val; omega
  | ⟨1, _⟩ => show win2_0.index t (1 : Fin 2) * 64 + 1 * k.val = k.val; omega

theorem S2_congr (c : Dev nD) (n n' : ℕ) (h : n < cfg2.N) (h' : n' < cfg2.N) (e : n = n') : S2 V c n h = S2 V c n' h' := by
  subst e; rfl

def tilePoint (nt : ℕ) (hnt : nt < 50) (a : ℕ) : Fin cfg2.N := ⟨400 * nt + a % 400, by rw [N2]; omega⟩
theorem tilePoint_val (nt : ℕ) (hnt : nt < 50) (a : ℕ) : (tilePoint nt hnt a).val = 400 * nt + a % 400 := rfl

theorem S2_last (c : Dev nD) (nt : ℕ) (hnt : nt < 50) (r : Fin 1000) (k : Fin 64) :
    S2 V c (tilePoint nt hnt 399).val (tilePoint nt hnt 399).isLt (ix2 r k)
      = ∑ q ∈ Finset.univ.filter (fun q : Fin 800000 => (dstw2 V c (ix2 q 0)).toNat = 1000 * nt + r.val),
          attnw2 V c (ix2 q 0) * wsrcw2 V c (ix2 q k) := by
  refine scatter_fold_last nt hnt (dstw2 V c) (attnw2 V c) (wsrcw2 V c)
    (fun a => grid2.coords (tilePoint nt hnt a)) (fun a => dblk V c (tilePoint nt hnt a)) (fun a => ablk V c (tilePoint nt hnt a))
    (fun a => wblk V c (tilePoint nt hnt a)) (fun a => S2 V c (tilePoint nt hnt a).val (tilePoint nt hnt a).isLt) ?_ ?_ ?_ ?_ ?_ ?_ r k
  · intro a ha
    show ((grid2.coords (tilePoint nt hnt a)) 0).val = nt
    rw [coords2_0, tilePoint_val]
    omega
  · intro a ha b
    exact dblk_apply V c (tilePoint nt hnt a) b (edgeRow a ha b) (by rw [edgeRow_val, tilePoint_val]; omega)
  · intro a ha b
    exact ablk_apply V c (tilePoint nt hnt a) b (edgeRow a ha b) (by rw [edgeRow_val, tilePoint_val]; omega)
  · intro a ha b k'
    exact wblk_apply V c (tilePoint nt hnt a) b k' (edgeRow a ha b) (by rw [edgeRow_val, tilePoint_val]; omega)
  · exact S2_first V c (tilePoint nt hnt 0) (by rw [tilePoint_val]; omega)
  · intro a ha
    refine (S2_step V c (tilePoint nt hnt (a + 1)) (by rw [tilePoint_val]; omega)).trans ?_
    exact congrArg (k2_pay2 (F := Ideal) (grid2.coords (tilePoint nt hnt (a + 1))) (dblk V c (tilePoint nt hnt (a + 1)))
        (ablk V c (tilePoint nt hnt (a + 1))) (wblk V c (tilePoint nt hnt (a + 1))))
      (S2_congr V c _ _ _ _ (by rw [tilePoint_val, tilePoint_val]; omega))

theorem read_out_apply (t : Fin cfg2.N) (G : S50000x64.Idx → EReal) (j : S1000x64.Idx) :
    ((cfg2.win 3).blk t).view.read (Elt Ideal) G j = G (((cfg2.win 3).blk t).view.emb j) := rfl

theorem scatterOut_ix2 (c : Dev nD) (n : Fin 50000) (k : Fin 64) :
    scatterOut V c (ix2 n k) = eluK (∑ q ∈ Finset.univ.filter (fun q : Fin 800000 => (dstw2 V c (ix2 q 0)).toNat = n.val),
      attnw2 V c (ix2 q 0) * wsrcw2 V c (ix2 q k)) := rfl

theorem flushed2_eq (c : Dev nD) (t : Fin cfg2.N) (hf : (cfg2.win 3).flush t = true) :
    (dat2 (F := Ideal) V c).flushed 3 t = ((cfg2.win 3).blk t).view.read (Elt Ideal) (scatterOut V c) := by
  have h399 : t.val % 400 = 399 := (flush2_3 t).mp hf
  have hlt := lt_N2 t
  have hnt : t.val / 400 < 50 := by omega
  obtain ⟨e0, e1⟩ := index2_3 t
  show (cfg2.win 3).cut (grid2.coords t) ((dat2 V c).after 3 t) = _
  rw [after2_3]
  funext j
  obtain ⟨r, k, rfl⟩ : ∃ (r : Fin 1000) (k : Fin 64), j = ix2 r k := ⟨j 0, j 1, eq_ix2 j⟩
  refine Eq.trans ?_ (read_out_apply t (scatterOut V c) (ix2 r k)).symm
  show k2_pay3 (F := Ideal) (S2 V c t.val t.isLt) (ix2 r k) = _
  have hemb : ((cfg2.win 3).blk t).view.emb (ix2 r k)
      = ix2 (⟨1000 * (t.val / 400) + r.val, by have := r.isLt; omega⟩ : Fin 50000) k := by
    funext a; apply Fin.ext
    match a with
    | ⟨0, _⟩ => show win2_3.index t (0 : Fin 2) * 1000 + 1 * r.val = 1000 * (t.val / 400) + r.val; omega
    | ⟨1, _⟩ => show win2_3.index t (1 : Fin 2) * 64 + 1 * k.val = k.val; omega
  refine Eq.trans ?_ (congrArg (scatterOut V c) hemb).symm
  refine (k2_pay3_apply _ r k).trans ?_
  have hS : S2 V c t.val t.isLt (ix2 r k)
      = ∑ q ∈ Finset.univ.filter (fun q : Fin 800000 => (dstw2 V c (ix2 q 0)).toNat = 1000 * (t.val / 400) + r.val),
          attnw2 V c (ix2 q 0) * wsrcw2 V c (ix2 q k) := by
    rw [S2_congr V c t.val (tilePoint (t.val / 400) hnt 399).val t.isLt (tilePoint (t.val / 400) hnt 399).isLt
      (by rw [tilePoint_val]; omega)]
    exact S2_last V c (t.val / 400) hnt r k
  rw [hS, scatterOut_ix2]
  exact (eluK_def _).symm

theorem mem_blk2 (t : Fin cfg2.N) (i : S50000x64.Idx) :
    i ∈ ((cfg2.win 3).blk t).view.set ↔ ∀ a : Fin 2, win2_3.index t a * S1000x64.size a ≤ (i a).val ∧ (i a).val < win2_3.index t a * S1000x64.size a + S1000x64.size a := by
  show i ∈ ((View.whole main_v22).slice (win2_3.rect t)).set ↔ _
  rw [View.set_slice_whole, Rect.mem_set_unit]
  exact Iff.rfl

theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have ht : 400 * ((i 0).val / 1000) + 399 < cfg2.N := by rw [N2]; omega
  obtain ⟨e0, e1⟩ := index2_3 ⟨400 * ((i 0).val / 1000) + 399, ht⟩
  have q0 : win2_3.index ⟨400 * ((i 0).val / 1000) + 399, ht⟩ (0 : Fin 2) = (400 * ((i 0).val / 1000) + 399) / 400 := e0
  refine ⟨⟨400 * ((i 0).val / 1000) + 399, ht⟩,
    (flush2_3 _).mpr (by show (400 * ((i 0).val / 1000) + 399) % 400 = 399; omega), ?_⟩
  rw [mem_blk2]
  intro a
  match a with
  | ⟨0, _⟩ =>
    show win2_3.index ⟨400 * ((i 0).val / 1000) + 399, ht⟩ (0 : Fin 2) * 1000 ≤ (i 0).val
      ∧ (i 0).val < win2_3.index ⟨400 * ((i 0).val / 1000) + 399, ht⟩ (0 : Fin 2) * 1000 + 1000
    omega
  | ⟨1, _⟩ =>
    show win2_3.index ⟨400 * ((i 0).val / 1000) + 399, ht⟩ (1 : Fin 2) * 64 ≤ (i 1).val
      ∧ (i 1).val < win2_3.index ⟨400 * ((i 0).val / 1000) + 399, ht⟩ (1 : Fin 2) * 64 + 64
    omega

theorem arr2 (c : Dev nD) : (dat2 (F := Ideal) V c).arrAt 3 cfg2.N = scatterOut V c :=
  (dat2 (F := Ideal) V c).arrAt_eq_of_cover 3 (scatterOut V c) (fun t hf => flushed2_eq V c t hf) cover2

theorem arr2_eq (c : Dev nD) (i : S50000x64.Idx) :
    (dat2 (F := Ideal) V c).arrAt 3 cfg2.N i
      = (eluK (∑ q ∈ Finset.univ.filter (fun q : Fin 800000 => (dstw2 V c (ix2 q 0)).toNat = (i 0).val),
          attnw2 V c (ix2 q 0) * wsrcw2 V c (ix2 q (i 1))) : EReal) :=
  (congrFun (arr2 V c) i).trans (scatterOut_apply V c i)

end Cert.KernelIdeal.Val

end
-- ==== Proof.KVal.lean ====
import proofs.«413069_j24043226923662_1_alg».proof.Proof.KI.Run
import proofs.«413069_j24043226923662_1_alg».proof.Proof.Val0
import proofs.«413069_j24043226923662_1_alg».proof.Proof.Val1
import proofs.«413069_j24043226923662_1_alg».proof.Proof.Val2
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem srcCol_apply (ei : IVec S2x800000 32) (q : Fin 800000) : srcCol ei (ix2 q (0 : Fin 1)) = ei (ix2 (0 : Fin 2) q) := by
  unfold srcCol edgeCol
  refine (shapeCast_apply _ _ (ix2 q (0 : Fin 1)) (ix1 q) ?_).trans ?_
  · rw [Shape.rowMajor_val_one, Shape.rowMajor_val_two]
    show q.val = q.val * 1 + 0
    omega
  refine (shapeCast_apply _ _ (ix1 q) (ix2 (0 : Fin 1) q) ?_).trans ?_
  · rw [Shape.rowMajor_val_two, Shape.rowMajor_val_one]
    show 0 * 800000 + q.val = q.val
    omega
  refine extractStridedSlice_apply _ ei _ (ix2 (0 : Fin 1) q) (ix2 (0 : Fin 2) q) fun ax => ?_
  match ax with
  | ⟨0, _⟩ => rfl
  | ⟨1, _⟩ => show q.val = 0 + q.val; omega

theorem dstCol_apply (ei : IVec S2x800000 32) (q : Fin 800000) : dstCol ei (ix2 q (0 : Fin 1)) = ei (ix2 (1 : Fin 2) q) := by
  unfold dstCol edgeCol
  refine (shapeCast_apply _ _ (ix2 q (0 : Fin 1)) (ix1 q) ?_).trans ?_
  · rw [Shape.rowMajor_val_one, Shape.rowMajor_val_two]
    show q.val = q.val * 1 + 0
    omega
  refine (shapeCast_apply _ _ (ix1 q) (ix2 (0 : Fin 1) q) ?_).trans ?_
  · rw [Shape.rowMajor_val_two, Shape.rowMajor_val_one]
    show 0 * 800000 + q.val = q.val
    omega
  refine extractStridedSlice_apply _ ei _ (ix2 (0 : Fin 1) q) (ix2 (1 : Fin 2) q) fun ax => ?_
  match ax with
  | ⟨0, _⟩ => rfl
  | ⟨1, _⟩ => show q.val = 0 + q.val; omega

def projK (h : S50000x128.Idx → EReal) (W : S128x64.Idx → EReal) (n : Fin 50000) (k : Fin 64) : EReal :=
  ∑ j : Fin 128, h (ix2 n j) * W (ix2 j k)

def srcN (ei : IVec S2x800000 32) (q : Fin 800000) : ℕ := (ei (ix2 (0 : Fin 2) q)).toNat
def dstN (ei : IVec S2x800000 32) (q : Fin 800000) : ℕ := (ei (ix2 (1 : Fin 2) q)).toNat

def scoreAtK (h : S50000x128.Idx → EReal) (ei : IVec S2x800000 32) (W : S128x64.Idx → EReal) (a : FVec Ideal S128x1 .f32)
    (hidx : ∀ j : S2x800000.Idx, (ei j).toNat < 50000) (q : Fin 800000) : EReal :=
  lreluK ((∑ k : Fin 64, projK h W ⟨srcN ei q, hidx _⟩ k * projK h W ⟨dstN ei q, hidx _⟩ k) * scale11 (F := Ideal) a (ix2 0 0))

def scoreCol (h : S50000x128.Idx → EReal) (ei : IVec S2x800000 32) (W : S128x64.Idx → EReal) (a : FVec Ideal S128x1 .f32)
    (hidx : ∀ j : S2x800000.Idx, (ei j).toNat < 50000) : FVec Ideal S800000x1 .f32 :=
  fun i => scoreAtK h ei W a hidx ⟨(i 0).val, idx2_lt0 i⟩

theorem scoreCol_apply (h : S50000x128.Idx → EReal) (ei : IVec S2x800000 32) (W : S128x64.Idx → EReal) (a : FVec Ideal S128x1 .f32)
    (hidx : ∀ j : S2x800000.Idx, (ei j).toNat < 50000) (q : Fin 800000) (u : Fin 1) :
    scoreCol h ei W a hidx (ix2 q u) = scoreAtK h ei W a hidx q := rfl

section Compose

variable (m : (ℓ : Loc nD τ sig) → Buf (Elt Ideal) ℓ) (ρ : Dev nD → PrngReg)

abbrev hArg (c : Dev nD) : S50000x128.Idx → EReal := m ((c : Thread nD τ).loc main_arg0)
abbrev eiArg (c : Dev nD) : IVec S2x800000 32 := m ((c : Thread nD τ).loc main_arg1)
abbrev wArg (c : Dev nD) : S128x64.Idx → EReal := m ((c : Thread nD τ).loc main_arg2)
abbrev aArg (c : Dev nD) : FVec Ideal S128x1 .f32 := m ((c : Thread nD τ).loc main_arg3)

theorem srcw_V2 (c : Dev nD) : srcw (V2 m ρ) c = srcCol (eiArg m c) := (V2_src m ρ c).trans (V1_src m ρ c)
theorem dstw_V2 (c : Dev nD) : dstw (V2 m ρ) c = dstCol (eiArg m c) := (V2_dst m ρ c).trans (V1_dst m ρ c)

theorem scalew_V2 (c : Dev nD) : scalew (V2 m ρ) c = scale11 (F := Ideal) (aArg m c) := (V2_asum m ρ c).trans (V1_scale m ρ c)

theorem whw_V2 (c : Dev nD) : whw (V2 m ρ) c = prodHW (hArg m c) (wArg m c) :=
  (V2_wh m ρ c).trans ((arr0 (V1 m ρ) c).trans (congrArg₂ prodHW (V1_h m ρ c) (V1_w m ρ c)))

theorem whw_V2_apply (c : Dev nD) (n n' : Fin 50000) (e : n.val = n'.val) (k : Fin 64) :
    whw (V2 m ρ) c (ix2 n k) = projK (hArg m c) (wArg m c) n' k := by
  obtain rfl : n = n' := Fin.ext e
  exact congrFun (whw_V2 m ρ c) (ix2 n k)

theorem dstw2_V4 (c : Dev nD) : dstw2 (V4 m ρ) c = dstCol (eiArg m c) := (V4_dst m ρ c).trans (V1_dst m ρ c)

theorem hsrc_V2 (c : Dev nD) (hidx : ∀ j : S2x800000.Idx, (eiArg m c j).toNat < 50000) : ∀ q : Fin 800000, BitVec.toNat (srcw (V2 m ρ) c (ix2 q 0)) < 50000 := fun q => by
  rw [congrFun (srcw_V2 m ρ c) (ix2 q 0), srcCol_apply]
  exact hidx _
theorem hdst_V2 (c : Dev nD) (hidx : ∀ j : S2x800000.Idx, (eiArg m c j).toNat < 50000) : ∀ q : Fin 800000, BitVec.toNat (dstw (V2 m ρ) c (ix2 q 0)) < 50000 := fun q => by
  rw [congrFun (dstw_V2 m ρ c) (ix2 q 0), dstCol_apply]
  exact hidx _

theorem score_V2 (c : Dev nD) (hidx : ∀ j : S2x800000.Idx, (eiArg m c j).toNat < 50000) :
    score (srcw (V2 m ρ) c) (dstw (V2 m ρ) c) (whw (V2 m ρ) c) (scalew (V2 m ρ) c) (hsrc_V2 m ρ c hidx) (hdst_V2 m ρ c hidx)
      = scoreCol (hArg m c) (eiArg m c) (wArg m c) (aArg m c) hidx := by
  funext i
  obtain ⟨q, u, rfl⟩ : ∃ (q : Fin 800000) (u : Fin 1), i = ix2 q u := ⟨i 0, i 1, eq_ix2 i⟩
  rw [score_apply, scoreCol_apply]
  unfold scoreAtK
  refine congrArg lreluK (congrArg₂ (· * ·) (Finset.sum_congr rfl fun k _ => congrArg₂ (· * ·) ?_ ?_) ?_)
  · exact whw_V2_apply m ρ c _ _ (by
      show BitVec.toNat (srcw (V2 m ρ) c (ix2 q 0)) = srcN (eiArg m c) q
      rw [congrFun (srcw_V2 m ρ c) (ix2 q 0), srcCol_apply]; rfl) k
  · exact whw_V2_apply m ρ c _ _ (by
      show BitVec.toNat (dstw (V2 m ρ) c (ix2 q 0)) = dstN (eiArg m c) q
      rw [congrFun (dstw_V2 m ρ c) (ix2 q 0), dstCol_apply]; rfl) k
  · exact congrFun (scalew_V2 m ρ c) (ix2 0 0)

theorem attnw2_V4 (c : Dev nD) (hidx : ∀ j : S2x800000.Idx, (eiArg m c j).toNat < 50000) : attnw2 (V4 m ρ) c = attnCol (F := Ideal) (scoreCol (hArg m c) (eiArg m c) (wArg m c) (aArg m c) hidx) :=
  (V4_attn m ρ c).trans (congrArg (attnCol (F := Ideal))
    (((V3_escore m ρ c).trans (arr1_6_eq (V2 m ρ) c (hsrc_V2 m ρ c hidx) (hdst_V2 m ρ c hidx))).trans (score_V2 m ρ c hidx)))

theorem wsrcw2_V4_apply (c : Dev nD) (hidx : ∀ j : S2x800000.Idx, (eiArg m c j).toNat < 50000) (q : Fin 800000) (k : Fin 64) :
    wsrcw2 (V4 m ρ) c (ix2 q k) = projK (hArg m c) (wArg m c) ⟨srcN (eiArg m c) q, hidx _⟩ k := by
  refine (congrFun ((V4_wsrc m ρ c).trans (arr1_4_eq (V2 m ρ) c (hsrc_V2 m ρ c hidx))) (ix2 q k)).trans ?_
  rw [gath_apply]
  exact whw_V2_apply m ρ c _ _ (by
    show BitVec.toNat (srcw (V2 m ρ) c (ix2 q 0)) = srcN (eiArg m c) q
    rw [congrFun (srcw_V2 m ρ c) (ix2 q 0), srcCol_apply]; rfl) k

theorem kernel_result (c : Dev nD) (hidx : ∀ j : S2x800000.Idx, (eiArg m c j).toNat < 50000) (i : S50000x64.Idx) :
    (dat2 (F := Ideal) (V4 m ρ) c).arrAt 3 cfg2.N i
      = (eluK (∑ q ∈ Finset.univ.filter (fun q : Fin 800000 => dstN (eiArg m c) q = (i 0).val),
          attnCol (F := Ideal) (scoreCol (hArg m c) (eiArg m c) (wArg m c) (aArg m c) hidx) (ix2 q 0)
            * projK (hArg m c) (wArg m c) ⟨srcN (eiArg m c) q, hidx _⟩ (i 1)) : EReal) := by
  refine (arr2_eq (V4 m ρ) c i).trans (congrArg eluK ?_)
  have hd : ∀ q : Fin 800000, (dstw2 (V4 m ρ) c (ix2 q 0)).toNat = dstN (eiArg m c) q := fun q => by
    rw [congrFun (dstw2_V4 m ρ c) (ix2 q 0), dstCol_apply]; rfl
  refine Finset.sum_congr (Finset.filter_congr fun q _ => by rw [hd q]) fun q _ => ?_
  refine congrArg₂ (· * ·) (congrFun (attnw2_V4 m ρ c hidx) (ix2 q 0)) ?_
  exact wsrcw2_V4_apply m ρ c hidx q ⟨(i 1).val, idx2_lt1 i⟩

end Compose

end Cert.KernelIdeal.Val

end
-- ==== Proof.RefRead.lean ====
import proofs.«413069_j24043226923662_1_alg».proof.Proof.RefSpec
import Idealize.ShloMosaic.Lib.IdealHost
import Idealize.ShloMosaic.Lib.Pipeline.Value

noncomputable section

open scoped BigOperators

namespace Cert.ReferenceIdeal.Hand

open Cert.ReferenceIdeal Idealize.ShloMosaic Idealize.ShloMosaic.ValueIdx

theorem select_ofBool_decide {α : Type} (p : Prop) [i₁ : Decidable p] [i₂ : Decidable p] (a b : α) :
    Scalar.select (BitVec.ofBool (@decide p i₁)) a b = @ite α p i₂ a b := by
  by_cases h : p <;> simp [Scalar.select, h]

theorem toInt_eq_toNat {v : BitVec 32} (h0 : 0 ≤ v.toInt) : v.toInt = v.toNat := by
  have h := BitVec.toInt_eq_toNat_cond v
  have := v.isLt
  split_ifs at h <;> omega

theorem toNat_lt_of_toInt {v : BitVec 32} (h0 : 0 ≤ v.toInt) (h1 : v.toInt < 50000) : v.toNat < 50000 := by
  have := toInt_eq_toNat h0; omega

theorem ix2_eq_iff {n0 n1 : Nat} (a a' : Fin n0) (b b' : Fin n1) : ix2 a b = ix2 a' b' ↔ a = a' ∧ b = b' := by
  constructor
  · intro h
    exact ⟨congrFun h (0 : Fin 2), congrFun h (1 : Fin 2)⟩
  · rintro ⟨rfl, rfl⟩; rfl

theorem hostScatterAdd_apply_of_zero {s si su : Shape} (d : ScatterDims s si su) {w : Nat} (x : s.Idx → EReal)
    (idx : IVec si w) (upd : su.Idx → EReal) (i : s.Idx) (hx : x i = 0) :
    Ideal.hostScatterAdd d x idx upd i = ∑ j, if d.resultIdx? j idx = some i then upd j else 0 := by
  unfold Ideal.hostScatterAdd
  rw [hx, zero_add, Finset.sum_filter]

variable [Facts]
open Facts₀ Facts

theorem wh_apply (h : FVec Ideal S50000x128 .f32) (W : FVec Ideal S128x64 .f32) (r : Fin 50000) (c : Fin 64) :
    wh h W (ix2 r c) = ∑ k : Fin 128, h (ix2 r k) * W (ix2 k c) := by
  show FloatOps.dotGeneral dot_S50000x128_S128x64_S50000x64_1_0_0_1_n_n none .single h W (ix2 r c) = _
  rw [Ideal.dotGeneral_apply,
    ← Equiv.sum_comp (contrEquiv1 dot_S50000x128_S128x64_S50000x64_1_0_0_1_n_n 128 rfl rfl).symm]
  refine Finset.sum_congr rfl fun k _ => ?_
  have ck := contrEquiv1_symm_val dot_S50000x128_S128x64_S50000x64_1_0_0_1_n_n 128 rfl rfl k
  have hl : dot_S50000x128_S128x64_S50000x64_1_0_0_1_n_n.lhsIdx (ix2 r c)
      ((contrEquiv1 dot_S50000x128_S128x64_S50000x64_1_0_0_1_n_n 128 rfl rfl).symm k) = ix2 r k := by
    funext ax; apply Fin.ext
    match ax with
    | ⟨0, _⟩ => simp [DotDims.lhsIdx, dot_S50000x128_S128x64_S50000x64_1_0_0_1_n_n]; rfl
    | ⟨1, _⟩ => simp [DotDims.lhsIdx, dot_S50000x128_S128x64_S50000x64_1_0_0_1_n_n]; exact ck
  have hr : dot_S50000x128_S128x64_S50000x64_1_0_0_1_n_n.rhsIdx (ix2 r c)
      ((contrEquiv1 dot_S50000x128_S128x64_S50000x64_1_0_0_1_n_n 128 rfl rfl).symm k) = ix2 k c := by
    funext ax; apply Fin.ext
    match ax with
    | ⟨0, _⟩ => simp [DotDims.rhsIdx, dot_S50000x128_S128x64_S50000x64_1_0_0_1_n_n]; exact ck
    | ⟨1, _⟩ => simp [DotDims.rhsIdx, dot_S50000x128_S128x64_S50000x64_1_0_0_1_n_n]; rfl
  rw [hl, hr]

theorem srcRow_apply (ei : IVec S2x800000 32) (e : Fin 800000) : srcRow ei (ix1 e) = ei (ix2 (0 : Fin 2) e) := by
  unfold srcRow
  rw [shapeCast_apply _ _ (ix1 e) (ix2 (0 : Fin 1) e) (by
    rw [Shape.rowMajor_val_two, Shape.rowMajor_val_one]
    show 0 * 800000 + e.val = e.val
    rw [Nat.zero_mul, Nat.zero_add])]
  exact extractStridedSlice_apply _ _ _ _ (ix2 (0 : Fin 2) e) fun a => by
    match a with
    | ⟨0, _⟩ => rfl
    | ⟨1, _⟩ => exact (Nat.zero_add _).symm

theorem dstRow_apply (ei : IVec S2x800000 32) (e : Fin 800000) : dstRow ei (ix1 e) = ei (ix2 (1 : Fin 2) e) := by
  unfold dstRow
  rw [shapeCast_apply _ _ (ix1 e) (ix2 (0 : Fin 1) e) (by
    rw [Shape.rowMajor_val_two, Shape.rowMajor_val_one]
    show 0 * 800000 + e.val = e.val
    rw [Nat.zero_mul, Nat.zero_add])]
  exact extractStridedSlice_apply _ _ _ _ (ix2 (1 : Fin 2) e) fun a => by
    match a with
    | ⟨0, _⟩ => rfl
    | ⟨1, _⟩ => exact (Nat.zero_add _).symm

theorem upd_apply (p : FVec Ideal S800000 .f32) (g : FVec Ideal S800000x64 .f32) (e : Fin 800000) (k : Fin 64) :
    upd p g (ix2 e k) = p (ix1 e) * g (ix2 e k) := by
  unfold upd
  rw [mulf_apply,
    broadcastInDim_apply _ _ _ (ix2 e k) (ix2 e (0 : Fin 1)) (fun a => by
      match a with
      | ⟨0, _⟩ => rfl
      | ⟨1, _⟩ => rfl),
    broadcastInDim_apply _ _ _ (ix2 e (0 : Fin 1)) (ix1 e) (fun a => by match a with | ⟨0, _⟩ => rfl)]

theorem norm_apply (x : IVec S800000 32) (i : S800000.Idx) (h0 : 0 ≤ (x i).toInt) : norm x i = x i := by
  show Scalar.select (IntOp.cmpi .slt (x i) 0#32) (IntOp.addi (x i) 50000#32) (x i) = x i
  have hc : IntOp.cmpi .slt (x i) 0#32 = 0#1 := by
    have hs : (x i).slt 0#32 = false := by
      rw [Bool.eq_false_iff]; intro hs
      rw [BitVec.slt_iff_toInt_lt] at hs
      simp at hs; omega
    simp only [IntOp.cmpi, hs]; rfl
  rw [hc, select_zero]

theorem idxCol_apply (x : IVec S800000 32) (e : Fin 800000) : idxCol x (ix2 e (0 : Fin 1)) = norm x (ix1 e) := by
  unfold idxCol
  exact broadcastInDim_apply _ _ _ _ (ix1 e) fun a => by match a with | ⟨0, _⟩ => rfl

theorem gath_apply {F : FTy → Type} [FloatOps F] (t : FVec F S50000x64 .f32) (x : IVec S800000 32) (e : Fin 800000) (k : Fin 64)
    (h0 : 0 ≤ (x (ix1 e)).toInt) (h1 : (x (ix1 e)).toInt < 50000) :
    gath t x (ix2 e k) = t (ix2 ⟨(x (ix1 e)).toNat, toNat_lt_of_toInt h0 h1⟩ k) := by
  unfold gath Host.gather
  congr 1
  funext a
  refine Fin.ext ?_
  match a with
  | ⟨0, _⟩ =>
    show gather_S50000x64_S800000x1_S800000x64_1_0_n_n_0_1_164.start (ix2 e k) (idxCol x) 0
        + gather_S50000x64_S800000x1_S800000x64_1_0_n_n_0_1_164.batchCoord (ix2 e k) 0
        + gather_S50000x64_S800000x1_S800000x64_1_0_n_n_0_1_164.offCoord (ix2 e k) 0 = (x (ix1 e)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S800000x1_S800000x64_1_0_n_n_0_1_164.startIndexMap from
      List.mem_singleton.mpr rfl)]
    have hsi : gather_S50000x64_S800000x1_S800000x64_1_0_n_n_0_1_164.siIdx (ix2 e k)
        ⟨List.idxOf (0 : Fin 2) gather_S50000x64_S800000x1_S800000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, idxCol_apply, norm_apply _ _ h0]
    have hn := toNat_lt_of_toInt h0 h1
    show min (x (ix1 e)).toInt.toNat 49999 = _
    rw [toInt_eq_toNat h0, Int.toNat_natCast]
    exact Nat.min_eq_left (by omega)
  | ⟨1, _⟩ =>
    show gather_S50000x64_S800000x1_S800000x64_1_0_n_n_0_1_164.start (ix2 e k) (idxCol x) 1
        + gather_S50000x64_S800000x1_S800000x64_1_0_n_n_0_1_164.batchCoord (ix2 e k) 1
        + gather_S50000x64_S800000x1_S800000x64_1_0_n_n_0_1_164.offCoord (ix2 e k) 1 = k.val
    rw [GatherDims.batchCoord_eq_zero _ _ _ List.not_mem_nil]
    unfold GatherDims.start
    rw [dif_neg (show (1 : Fin 2) ∉ gather_S50000x64_S800000x1_S800000x64_1_0_n_n_0_1_164.startIndexMap from
      fun h => absurd (List.mem_singleton.mp h) (by decide))]
    simp only [Nat.add_zero, Nat.zero_add]
    unfold GatherDims.offCoord
    rw [dif_pos (show (1 : Fin 2) ∈ gather_S50000x64_S800000x1_S800000x64_1_0_n_n_0_1_164.sKept from
      (GatherDims.mem_sKept _ _).mpr ⟨fun h => absurd (List.mem_singleton.mp h) (by decide), List.not_mem_nil⟩)]
    rfl

theorem score_apply (t : FVec Ideal S50000x64 .f32) (src dst : IVec S800000 32) (e : Fin 800000) :
    score t src dst (ix1 e) = ∑ k : Fin 64, gath t src (ix2 e k) * gath t dst (ix2 e k) := by
  unfold score
  rw [hostReduceAdd_apply,
    Ideal.hostReduceAdd_single reducesTo_S800000x64_S800000_d1 (by decide : S800000x64.Reduces [1] S800000),
    constant_apply, Ideal.ofBits_zero_f32, zero_add]
  refine Finset.sum_congr rfl fun k _ => ?_
  rw [mulf_apply]
  have hl : (by decide : S800000x64.Reduces [1] S800000).lift (ix1 e) k = ix2 e k := by
    funext a; refine Fin.ext ?_
    match a with
    | ⟨0, _⟩ => rfl
    | ⟨1, _⟩ => rfl
  rw [hl]
  rfl

theorem asum_apply (a : FVec Ideal S128x1 .f32) : asum a ix0 = ∑ i : S128x1.Idx, a i := by
  unfold asum
  rw [hostReduceAdd_apply, Ideal.hostReduceAdd_total reducesTo_S128x1_S_d0_1 (fun b => b.elim0),
    constant_apply, Ideal.ofBits_zero_f32, zero_add]

theorem raw_apply (s : FVec Ideal S800000 .f32) (c : FVec Ideal S_ .f32) (i : S800000.Idx) :
    raw s c i = s i * c ix0 := by
  unfold raw
  rw [mulf_apply, broadcastInDim_scalar_apply]

theorem lrelu_apply (x : FVec Ideal S800000 .f32) (i : S800000.Idx) :
    lrelu x i = if 0 ≤ x i then x i else Ideal.ofBits .f32 0x3E4CCCCD#32 * x i := by
  show Scalar.select (Ideal.cmp .oge (x i) (Ideal.ofBits .f32 0x00000000#32)) (x i)
      (Ideal.ofBits .f32 0x3E4CCCCD#32 * x i) = _
  rw [Ideal.ofBits_zero_f32]
  exact @select_ofBool_decide _ (0 ≤ x i) _ _ _ _

theorem elu_apply (x : FVec Ideal S50000x64 .f32) (i : S50000x64.Idx) :
    elu x i = if 0 < x i then x i else Ideal.exp (x i) - 1 := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1)) = _
  rw [Ideal.ofBits_zero_f32, Ideal.ofBits_one_f32, one_mul]
  by_cases h : 0 < x i
  · rw [if_pos h]; simp [Ideal.cmp, h, Scalar.select]
  · rw [if_neg h]; simp [Ideal.cmp, h, Scalar.select]

theorem resultIdx_apply (dst : IVec S800000 32) (e : Fin 800000) (k : Fin 64)
    (h0 : 0 ≤ (dst (ix1 e)).toInt) (h1 : (dst (ix1 e)).toInt < 50000) :
    scatter_S50000x64_S800000x1_S800000x64_1_0_0_1.resultIdx? (ix2 e k) (idxCol dst)
      = some (ix2 ⟨(dst (ix1 e)).toNat, toNat_lt_of_toInt h0 h1⟩ k) := by
  have hs0 : scatter_S50000x64_S800000x1_S800000x64_1_0_0_1.start (ix2 e k) (idxCol dst) (0 : Fin 2) = (dst (ix1 e)).toInt := by
    unfold ScatterDims.start
    rw [dif_pos (show (0 : Fin 2) ∈ scatter_S50000x64_S800000x1_S800000x64_1_0_0_1.scatterDimsToOperandDims from List.mem_singleton.mpr rfl)]
    have hsi : scatter_S50000x64_S800000x1_S800000x64_1_0_0_1.siIdx (ix2 e k)
        ⟨List.idxOf (0 : Fin 2) scatter_S50000x64_S800000x1_S800000x64_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, idxCol_apply, norm_apply _ _ h0]
  have hs1 : scatter_S50000x64_S800000x1_S800000x64_1_0_0_1.start (ix2 e k) (idxCol dst) (1 : Fin 2) = 0 := by
    unfold ScatterDims.start
    rw [dif_neg (show (1 : Fin 2) ∉ scatter_S50000x64_S800000x1_S800000x64_1_0_0_1.scatterDimsToOperandDims from
      fun h => absurd (List.mem_singleton.mp h) (by decide))]
  have hk0 : (0 : Fin 2) ∉ scatter_S50000x64_S800000x1_S800000x64_1_0_0_1.sKept := by
    simp [ScatterDims.sKept, Shape.kept, scatter_S50000x64_S800000x1_S800000x64_1_0_0_1]
  have hk1 : (1 : Fin 2) ∈ scatter_S50000x64_S800000x1_S800000x64_1_0_0_1.sKept := by
    simp [ScatterDims.sKept, Shape.kept, scatter_S50000x64_S800000x1_S800000x64_1_0_0_1]
  have hw0 : scatter_S50000x64_S800000x1_S800000x64_1_0_0_1.window (ix2 e k) (0 : Fin 2) = 0 := by
    unfold ScatterDims.window; rw [dif_neg hk0]
  have hw1 : scatter_S50000x64_S800000x1_S800000x64_1_0_0_1.window (ix2 e k) (1 : Fin 2) = k.val := by
    unfold ScatterDims.window; rw [dif_pos hk1]; rfl
  have hn := toNat_lt_of_toInt h0 h1
  have hi := toInt_eq_toNat h0
  have hall : ∀ a : Fin 2, 0 ≤ scatter_S50000x64_S800000x1_S800000x64_1_0_0_1.start (ix2 e k) (idxCol dst) a + scatter_S50000x64_S800000x1_S800000x64_1_0_0_1.window (ix2 e k) a
      ∧ scatter_S50000x64_S800000x1_S800000x64_1_0_0_1.start (ix2 e k) (idxCol dst) a + scatter_S50000x64_S800000x1_S800000x64_1_0_0_1.window (ix2 e k) a < S50000x64.size a := by
    intro a
    match a with
    | ⟨0, _⟩ =>
      show 0 ≤ scatter_S50000x64_S800000x1_S800000x64_1_0_0_1.start (ix2 e k) (idxCol dst) (0 : Fin 2) + scatter_S50000x64_S800000x1_S800000x64_1_0_0_1.window (ix2 e k) (0 : Fin 2)
        ∧ scatter_S50000x64_S800000x1_S800000x64_1_0_0_1.start (ix2 e k) (idxCol dst) (0 : Fin 2) + scatter_S50000x64_S800000x1_S800000x64_1_0_0_1.window (ix2 e k) (0 : Fin 2) < (50000 : Nat)
      rw [hs0, hw0]; constructor <;> omega
    | ⟨1, _⟩ =>
      show 0 ≤ scatter_S50000x64_S800000x1_S800000x64_1_0_0_1.start (ix2 e k) (idxCol dst) (1 : Fin 2) + scatter_S50000x64_S800000x1_S800000x64_1_0_0_1.window (ix2 e k) (1 : Fin 2)
        ∧ scatter_S50000x64_S800000x1_S800000x64_1_0_0_1.start (ix2 e k) (idxCol dst) (1 : Fin 2) + scatter_S50000x64_S800000x1_S800000x64_1_0_0_1.window (ix2 e k) (1 : Fin 2) < (64 : Nat)
      rw [hs1, hw1]; have := k.isLt; constructor <;> omega
  unfold ScatterDims.resultIdx?
  rw [dif_pos hall]
  refine congrArg some (funext fun a => Fin.ext ?_)
  match a with
  | ⟨0, _⟩ =>
    show (scatter_S50000x64_S800000x1_S800000x64_1_0_0_1.start (ix2 e k) (idxCol dst) (0 : Fin 2) + scatter_S50000x64_S800000x1_S800000x64_1_0_0_1.window (ix2 e k) (0 : Fin 2)).toNat = (dst (ix1 e)).toNat
    rw [hs0, hw0, hi]; simp
  | ⟨1, _⟩ =>
    show (scatter_S50000x64_S800000x1_S800000x64_1_0_0_1.start (ix2 e k) (idxCol dst) (1 : Fin 2) + scatter_S50000x64_S800000x1_S800000x64_1_0_0_1.window (ix2 e k) (1 : Fin 2)).toNat = k.val
    rw [hs1, hw1]; simp

theorem scat_eq (dst : IVec S800000 32) (u : FVec Ideal S800000x64 .f32) :
    scat dst u = Ideal.hostScatterAdd scatter_S50000x64_S800000x1_S800000x64_1_0_0_1
      (broadcastInDim S50000x64 ![] bcast_S_S50000x64 (constant (F := Ideal) S_ .f32 0x00000000#32)) (idxCol dst) u := rfl

theorem scat_apply (dst : IVec S800000 32) (u : FVec Ideal S800000x64 .f32)
    (hd : ∀ e : Fin 800000, 0 ≤ (dst (ix1 e)).toInt ∧ (dst (ix1 e)).toInt < 50000) (n : Fin 50000) (k : Fin 64) :
    scat dst u (ix2 n k)
      = ∑ e ∈ Finset.univ.filter (fun e : Fin 800000 => (dst (ix1 e)).toNat = n.val), u (ix2 e k) := by
  have hz : (broadcastInDim S50000x64 ![] bcast_S_S50000x64 (constant (F := Ideal) S_ .f32 0x00000000#32)) (ix2 n k)
      = (0 : EReal) := by
    rw [broadcastInDim_scalar_apply, constant_apply, Ideal.ofBits_zero_f32]
  rw [congrFun (scat_eq dst u) (ix2 n k), hostScatterAdd_apply_of_zero _ _ _ _ _ hz, sum_idx2, Finset.sum_filter]
  refine Finset.sum_congr rfl fun e _ => ?_
  have hiff : ∀ b : Fin 64, (scatter_S50000x64_S800000x1_S800000x64_1_0_0_1.resultIdx? (ix2 e b) (idxCol dst) = some (ix2 n k))
      ↔ ((dst (ix1 e)).toNat = n.val ∧ b = k) := by
    intro b
    rw [resultIdx_apply dst e b (hd e).1 (hd e).2, Option.some_inj, ix2_eq_iff, Fin.ext_iff]
  simp only [hiff]
  by_cases hn : (dst (ix1 e)).toNat = n.val
  · simp [hn]
  · simp [hn]

end Cert.ReferenceIdeal.Hand

end
-- ==== Proof.Bridge.lean ====
import proofs.«413069_j24043226923662_1_alg».proof.Proof.KVal
import proofs.«413069_j24043226923662_1_alg».proof.Proof.RefRead
import proofs.«413069_j24043226923662_1_alg».proof.Proof.Gen.ReferenceIdeal
import Idealize.ShloMosaic.Lib.Pipeline.Value
import Idealize.ShloMosaic.Lib.ValueIdx
import Idealize.ShloMosaic.Lib.ValueLayout

noncomputable section

open scoped BigOperators

namespace Cert.KernelIdeal.Val

open Idealize.ShloMosaic Cert.KernelIdeal Cert.KernelIdeal.Hand Idealize.ShloMosaic.ValueIdx

theorem word_toNat_lt {v : BitVec 32} (h : 0 ≤ v.toInt ∧ v.toInt < 50000) : v.toNat < 50000 :=
  Cert.ReferenceIdeal.Hand.toNat_lt_of_toInt h.1 h.2

theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem scale11_eq_asum (a : FVec Ideal S128x1 .f32) :
    scale11 a (ix2 (0 : Fin 1) (0 : Fin 1)) = Cert.ReferenceIdeal.Hand.asum a ix0 := by
  unfold scale11 Cert.ReferenceIdeal.Hand.asum
  exact shapeCast_apply _ _ _ ix0 (by
    rw [Shape.rowMajor_val_two]
    exact Nat.lt_one_iff.mp (S_.rowMajor ix0).isLt)

theorem softmaxFlat_eq (x : FVec Ideal S800000 .f32) : softmaxFlat x = Cert.ReferenceIdeal.Hand.softmax x := rfl

theorem lrelu_eq (x : EReal) : (if 0 ≤ x then x else Ideal.ofBits .f32 0x3E4CCCCD#32 * x) = lreluK x := by
  unfold lreluK
  by_cases h : 0 < x
  · rw [if_pos h.le, if_pos h]
  · by_cases h0 : 0 ≤ x
    · have hx : x = 0 := le_antisymm (not_lt.mp h) h0
      rw [if_pos h0, if_neg h, hx, mul_zero]
    · rw [if_neg h0, if_neg h]

variable (h : FVec Ideal S50000x128 .f32) (ei : IVec S2x800000 32) (W : FVec Ideal S128x64 .f32) (a : FVec Ideal S128x1 .f32)
  (hidx : ∀ j : S2x800000.Idx, 0 ≤ (ei j).toInt ∧ (ei j).toInt < 50000)

include hidx in

theorem gath_src (e : Fin 800000) (k : Fin 64) :
    Cert.ReferenceIdeal.Hand.gath (Cert.ReferenceIdeal.Hand.wh h W) (Cert.ReferenceIdeal.Hand.srcRow ei) (ix2 e k)
      = projK h W ⟨srcN ei e, word_toNat_lt (hidx _)⟩ k := by
  have e0 := Cert.ReferenceIdeal.Hand.srcRow_apply ei e
  rw [Cert.ReferenceIdeal.Hand.gath_apply _ _ e k (by rw [e0]; exact (hidx _).1) (by rw [e0]; exact (hidx _).2),
    Cert.ReferenceIdeal.Hand.wh_apply]
  unfold projK
  refine Finset.sum_congr rfl fun j _ => ?_
  exact congrArg (fun r => h (ix2 r j) * W (ix2 j k)) (Fin.ext (congrArg BitVec.toNat e0))

include hidx in

theorem gath_dst (e : Fin 800000) (k : Fin 64) :
    Cert.ReferenceIdeal.Hand.gath (Cert.ReferenceIdeal.Hand.wh h W) (Cert.ReferenceIdeal.Hand.dstRow ei) (ix2 e k)
      = projK h W ⟨dstN ei e, word_toNat_lt (hidx _)⟩ k := by
  have e0 := Cert.ReferenceIdeal.Hand.dstRow_apply ei e
  rw [Cert.ReferenceIdeal.Hand.gath_apply _ _ e k (by rw [e0]; exact (hidx _).1) (by rw [e0]; exact (hidx _).2),
    Cert.ReferenceIdeal.Hand.wh_apply]
  unfold projK
  refine Finset.sum_congr rfl fun j _ => ?_
  exact congrArg (fun r => h (ix2 r j) * W (ix2 j k)) (Fin.ext (congrArg BitVec.toNat e0))

theorem logits_apply (e : Fin 800000) :
    Cert.ReferenceIdeal.Hand.logits h ei W a (ix1 e) = scoreAtK h ei W a (fun j => word_toNat_lt (hidx j)) e := by
  unfold Cert.ReferenceIdeal.Hand.logits
  rw [Cert.ReferenceIdeal.Hand.lrelu_apply, lrelu_eq, Cert.ReferenceIdeal.Hand.raw_apply,
    Cert.ReferenceIdeal.Hand.score_apply]
  unfold scoreAtK
  rw [scale11_eq_asum]
  refine congrArg (fun s : EReal => lreluK (s * Cert.ReferenceIdeal.Hand.asum a ix0)) (Finset.sum_congr rfl fun k _ => ?_)
  rw [gath_src h ei W hidx e k, gath_dst h ei W hidx e k]

theorem flat_scoreCol :
    shapeCast S800000 (scoreCol h ei W a (fun j => word_toNat_lt (hidx j))) Gen.shapeCasts_S800000x1_S800000
      = Cert.ReferenceIdeal.Hand.logits h ei W a := by
  funext i
  obtain ⟨e, rfl⟩ : ∃ e : Fin 800000, i = ix1 e := ⟨i 0, eq_ix1 i⟩
  rw [logits_apply h ei W a hidx e]
  exact (shapeCast_a1_a_apply _ _ e).trans (scoreCol_apply h ei W a _ e 0)

theorem attnCol_apply (X : FVec Ideal S800000x1 .f32) (q : Fin 800000) :
    attnCol X (ix2 q (0 : Fin 1)) = softmaxFlat (shapeCast S800000 X Gen.shapeCasts_S800000x1_S800000) (ix1 q) := by
  unfold attnCol
  exact shapeCast_a_a1_apply _ _ q 0

theorem result_eq (i : S50000x64.Idx) :
    eluK (∑ q ∈ Finset.univ.filter (fun q : Fin 800000 => dstN ei q = (i 0).val),
        attnCol (F := Ideal) (scoreCol h ei W a (fun j => word_toNat_lt (hidx j))) (ix2 q (0 : Fin 1))
          * projK h W ⟨srcN ei q, word_toNat_lt (hidx _)⟩ (i 1))
      = Cert.ReferenceIdeal.Hand.result (F := Ideal) h ei W a i := by
  obtain ⟨n, k, rfl⟩ : ∃ (n : Fin 50000) (k : Fin 64), i = ix2 n k := ⟨i 0, i 1, eq_ix2 i⟩
  unfold Cert.ReferenceIdeal.Hand.result Cert.ReferenceIdeal.Hand.aggregate
  rw [Cert.ReferenceIdeal.Hand.elu_apply]
  refine congrArg eluK ?_
  rw [Cert.ReferenceIdeal.Hand.scat_apply _ _
    (fun e => by rw [Cert.ReferenceIdeal.Hand.dstRow_apply]; exact hidx _) n k]
  refine Finset.sum_congr (Finset.filter_congr fun e _ => by rw [Cert.ReferenceIdeal.Hand.dstRow_apply]; rfl) fun e _ => ?_
  unfold Cert.ReferenceIdeal.Hand.updates
  rw [Cert.ReferenceIdeal.Hand.upd_apply, gath_src h ei W hidx e k, attnCol_apply, flat_scoreCol h ei W a hidx, softmaxFlat_eq]

end Cert.KernelIdeal.Val

end
-- ==== Proof.lean ====
/-
  A graph-attention layer. Node features are projected (h · W); an edge's score is the leaky rectifier (slope 0.2) of
  the inner product of the projected rows at its two ends times the sum of the attention vector; the scores pass
  through a softmax over all edges; each node receives the exponential linear unit of the sum, over the edges arriving
  there, of weight times projected source row. The kernel gathers and scatters by one-hot products accumulated tile by
  tile: over the extended reals 0 · x = 0 and 1 · x = x, so with every edge index in [0, 50000) the one-hot sum is the
  indexed row and its transpose is the scatter-add, in any order of the tiles.
-/
import proofs.«413069_j24043226923662_1_alg».proof.Defs
import proofs.«413069_j24043226923662_1_alg».proof.Proof.Gen.Kernel
import proofs.«413069_j24043226923662_1_alg».proof.Proof.Gen.KernelIdeal
import proofs.«413069_j24043226923662_1_alg».proof.Proof.Gen.ReferenceIdeal
import proofs.«413069_j24043226923662_1_alg».proof.Proof.Gen.Pre_finite_inputs
import proofs.«413069_j24043226923662_1_alg».proof.Proof.KI.Run
import proofs.«413069_j24043226923662_1_alg».proof.Proof.RefRun
import proofs.«413069_j24043226923662_1_alg».proof.Proof.PreDecode
import proofs.«413069_j24043226923662_1_alg».proof.Proof.KVal
import proofs.«413069_j24043226923662_1_alg».proof.Proof.Bridge

noncomputable section

namespace Cert.Proof

open Idealize.ShloMosaic Idealize.ShloMosaic.TcCoe Idealize.SL.Sem

-- The word-level program and the idealized one are the same terms, kernel body by kernel body.
set_option maxHeartbeats 400000 in
theorem defs0_same : (Cert.Kernel.defs₀ (F := Bits)) = (Cert.KernelIdeal.defs₀ (F := Bits)) := by
  unfold Cert.Kernel.defs₀ Cert.KernelIdeal.defs₀
  refine congrArg Defs.onTc (funext fun l => funext fun a => ?_)
  match l, a with
  | 0, (t, s) => rfl
  | 1, (t, s) => rfl
  | 2, (t, s) => rfl
  | ⟨_ + 3, h⟩, _ => exact absurd h (by omega)

theorem defs_same : (Cert.Kernel.defs (F := Bits)) = (Cert.KernelIdeal.defs (F := Bits)) := by
  unfold Cert.Kernel.defs Cert.KernelIdeal.defs
  rw [defs0_same]
  rfl

set_option maxHeartbeats 400000 in
theorem main_same : (Cert.Kernel.main (F := Bits)) = (Cert.KernelIdeal.main (F := Bits)) := rfl

-- So the frame proved once for every instance of the float operations serves both programs.
theorem frame_k : Cert.frame_Kernel := fun m ρ _ => by
  have h := Cert.KernelIdeal.Hand.frame (F := Bits) m ρ
  rw [← defs_same, ← main_same] at h
  exact h

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem idx_of_pre (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S2x800000.Idx) :
    0 ≤ ((m ((c.tc : Thread Cert.KernelIdeal.nD Cert.KernelIdeal.τ).loc Cert.KernelIdeal.main_arg1) : Cert.KernelIdeal.S2x800000.Idx → BitVec 32) j).toInt
      ∧ ((m ((c.tc : Thread Cert.KernelIdeal.nD Cert.KernelIdeal.τ).loc Cert.KernelIdeal.main_arg1) : Cert.KernelIdeal.S2x800000.Idx → BitVec 32) j).toInt < 50000 :=
  Cert.Pre_finite_inputs.Hand.idx_in_range (F := Ideal) _ _ _ _ (hpre c) j

-- Both runs end at one function of the arguments: the kernel's closed form equals the reference's composed stages.
theorem algebraic : Cert.algebraic_KernelIdeal_ReferenceIdeal := by
  intro m ρ m' ρ' hpre hagree
  refine ⟨fun c => (Cert.KernelIdeal.Hand.dat2 (F := Ideal) (Cert.KernelIdeal.Hand.V4 m ρ) c).arrAt 3 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  funext i
  have hidx := idx_of_pre m hpre c
  exact ((Cert.KernelIdeal.Val.kernel_result m ρ c (fun j => Cert.KernelIdeal.Val.word_toNat_lt (hidx j)) i).trans
    (Cert.KernelIdeal.Val.result_eq _ _ _ _ hidx i)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
